-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S2048x1024 : Shape := ⟨2, ![2048, 1024]⟩
abbrev S1x1024x1024 : Shape := ⟨3, ![1, 1024, 1024]⟩
abbrev S1024x1 : Shape := ⟨2, ![1024, 1]⟩

abbrev nBuf : Space → Nat
  | .hbm => 22
  | .vmem => 26
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S8192x1024, .f32⟩
  | .hbm, ⟨13, _⟩ => ⟨S1x1024, .f32⟩
  | .hbm, ⟨14, _⟩ => ⟨S8192x1024, .bf16⟩
  | .hbm, ⟨15, _⟩ => ⟨S8192x1024, .f32⟩
  | .hbm, ⟨16, _⟩ => ⟨S1x1024, .f32⟩
  | .hbm, ⟨17, _⟩ => ⟨S8192x1024, .bf16⟩
  | .hbm, ⟨18, _⟩ => ⟨S4x2048x1024, .bf16⟩
  | .hbm, ⟨19, _⟩ => ⟨S4x2048x1024, .bf16⟩
  | .hbm, ⟨20, _⟩ => ⟨S1x1024, .f32⟩
  | .hbm, ⟨21, _⟩ => ⟨S4x2048x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | .local _ .vmem, ⟨7, _⟩ => ⟨S2048x1024, .f32⟩
  | .local _ .vmem, ⟨8, _⟩ => ⟨S1024x1024, .bf16⟩
  | .local _ .vmem, ⟨9, _⟩ => ⟨S1x1024, .f32⟩
  | .local _ .vmem, ⟨10, _⟩ => ⟨S2048x1024, .bf16⟩
  | .local _ .vmem, ⟨11, _⟩ => ⟨S2048x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S1024x1024, .bf16⟩
  | .local _ .vmem, ⟨15, _⟩ => ⟨S1x1024, .f32⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .f32⟩
  | .local _ .vmem, ⟨21, _⟩ => ⟨S1x1024x1024, .f32⟩
  | .local _ .vmem, ⟨22, _⟩ => ⟨S1024x1024, .bf16⟩
  | .local _ .vmem, ⟨23, _⟩ => ⟨S1024x1, .f32⟩
  | .local _ .vmem, ⟨24, _⟩ => ⟨S1024x1, .f32⟩
  | .local _ .vmem, ⟨25, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_scratch0 : Ref sig .tc := ⟨.vmem, 22, rfl⟩
abbrev cc2_scratch1 : Ref sig .tc := ⟨.vmem, 23, rfl⟩
abbrev cc2_scratch2 : Ref sig .tc := ⟨.vmem, 24, rfl⟩
abbrev cc2_scratch3 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![4, 2, 2], ![false, false, false]⟩

def k2_cond2 (i : grid2.Coords) : BitVec 1 :=
  let arg2 : BitVec 32 := BitVec.ofNat 32 (i 2).val
  let c1_i32 : BitVec 32 := 1#32
  let v40 : BitVec 1 := Scalar.cmpi .eq arg2 c1_i32
  let v41 : BitVec 32 := Scalar.extui v40
  let c0_i32_25 : BitVec 32 := 0#32
  let v42 : BitVec 1 := Scalar.cmpi .ne v41 c0_i32_25
  v42

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 2 → Memref sig .tc .vmem S1x1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 2 → Memref sig .tc .vmem S1x1024x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, true]

abbrev stage2_5 : Fin 2 → Memref sig .tc .vmem S1x1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

class Facts₀ : Prop where
  bitsLt_bf16_f32 : FTy.bits .bf16 < FTy.bits .f32
  shapeCasts_S4x2048x1024_S8192x1024 : S4x2048x1024.ShapeCasts S8192x1024
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  packedbf16_S2048x1024_S2048x1024_0_0 : (Rect.unit (s := S2048x1024) ![0, 0] S2048x1024.size inb_S2048x1024_S2048x1024_0_0).PackedRows (EltTy.packing .bf16)
  shapeCasts_S8192x1024_S4x2048x1024 : S8192x1024.ShapeCasts S4x2048x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x1024_p1_0_S1024x1024 : S1024x1024.Transposes [1, 0] S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  dot_S2048x1024_S1024x1024_S2048x1024_1_0_0_1_n_n_wf : DotDims.WF S2048x1024 S1024x1024 S2048x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x1024.size a
  hwx0_3 : ∀ i : grid0.Coords, EltTy.bits .bf16 = 32 ∨ (Rect.block (s := S8192x1024) S2048x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x1024.size a
  hwx1_0 : ∀ i : grid1.Coords, EltTy.bits .f32 = 32 ∨ (Rect.block (s := S8192x1024) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x1024.size a
  hwx1_3 : ∀ i : grid1.Coords, EltTy.bits .bf16 = 32 ∨ (Rect.block (s := S8192x1024) S2048x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S4x2048x1024.size a
  hwx2_0 : ∀ i : grid2.Coords, EltTy.bits .f32 = 32 ∨ (Rect.block (s := S4x2048x1024) S1x1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x1024.size a ≤ S4x2048x1024.size a
  hwx2_3 : ∀ i : grid2.Coords, EltTy.bits .bf16 = 32 ∨ (Rect.block (s := S4x2048x1024) S1x1024x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024x1024.size a ≤ S4x2048x1024.size a
  hwx2_4 : ∀ i : grid2.Coords, EltTy.bits .bf16 = 32 ∨ (Rect.block (s := S4x2048x1024) S1x1024x1024.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024x1024.size a ≤ S4x2048x1024.size a
  hwx2_5 : ∀ i : grid2.Coords, EltTy.bits .f32 = 32 ∨ (Rect.block (s := S4x2048x1024) S1x1024x1024.size (cc2_transform_5 i) (hinb2_5 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v3) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x1024x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x1024x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v12) S1x1024x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x2048, .f32⟩
  | .hbm, ⟨22, _⟩ => ⟨S_, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.Reg0.lean ====
import proofs.«401961_j51299089383807_3_alg».proof.Proof.Gen.Kernel.Launch
import proofs.«401961_j51299089383807_3_alg».proof.Proof.Gen.Kernel.Skeleton
import proofs.«401961_j51299089383807_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2048x1024 := Rect.unit (s := S2048x1024) ![0, 0] S2048x1024.size inb_S2048x1024_S2048x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

def out0_3 (x0 : Vec F S2048x1024 .f32) (x1 : Vec F S1024x1024 .bf16) (x2 : Vec F S1x1024 .f32) : Vec F S2048x1024 .bf16 :=
  View.canon [⟨r0_0, k0_pay1 (View.ld x0 r0_0) (View.ld x1 r0_1) (View.ld x2 r0_2)⟩]

theorem cover0_3 (p0 : Vec F S2048x1024 .bf16) (y : S2048x1024.Idx) :
    ∃ pc ∈ ([⟨r0_0, p0⟩] : List (View.Piece (Elt F) S2048x1024 .bf16)), y ∈ pc.1.set :=
  View.cover_of_tiled [⟨r0_0, p0⟩] S2048x1024.size (by rfl) y

-- The body reads its three inputs whole and stores one whole block.
set_option maxHeartbeats 1000000 in

theorem sound_kernel0 (c : Dev nD) (E : Set ℕ) (i : grid0.Coords)
    (arg1 : Memref sig .tc .vmem S2048x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S2048x1024 .bf16) (harg4 : arg4.IsWhole)
    (x0 : Vec F S2048x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_in (c : Dev nD) (t : Fin cfg0.N) :
    (∀ d, (dat0 V c).before 0 t d = iblk0 V c 0 t) ∧ (∀ d, (dat0 V c).before 1 t d = iblk0 V c 1 t)
      ∧ ∀ d, (dat0 V c).before 2 t d = iblk0 V c 2 t := by
  refine ⟨?_, ?_, ?_⟩ <;> intro d <;>
    exact ((dat0 V c).before_in_eq_fetched _ rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  obtain ⟨b0, b1, b2⟩ := before0_in V c t
  simp only [b0, b1, b2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
import proofs.«401961_j51299089383807_3_alg».proof.Proof.Gen.Kernel.Launch
import proofs.«401961_j51299089383807_3_alg».proof.Proof.Gen.Kernel.Skeleton
import proofs.«401961_j51299089383807_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2048x1024 := Rect.unit (s := S2048x1024) ![0, 0] S2048x1024.size inb_S2048x1024_S2048x1024_0_0
abbrev r1_1 : Rect S1024x1024 := Rect.unit (s := S1024x1024) ![0, 0] S1024x1024.size inb_S1024x1024_S1024x1024_0_0
abbrev r1_2 : Rect S1x1024 := Rect.unit (s := S1x1024) ![0, 0] S1x1024.size inb_S1x1024_S1x1024_0_0

def out1_3 (x0 : Vec F S2048x1024 .f32) (x1 : Vec F S1024x1024 .bf16) (x2 : Vec F S1x1024 .f32) : Vec F S2048x1024 .bf16 :=
  View.canon [⟨r1_0, k1_pay1 (View.ld x0 r1_0) (View.ld x1 r1_1) (View.ld x2 r1_2)⟩]

theorem cover1_3 (p0 : Vec F S2048x1024 .bf16) (y : S2048x1024.Idx) :
    ∃ pc ∈ ([⟨r1_0, p0⟩] : List (View.Piece (Elt F) S2048x1024 .bf16)), y ∈ pc.1.set :=
  View.cover_of_tiled [⟨r1_0, p0⟩] S2048x1024.size (by rfl) y

-- The body reads its three inputs whole and stores one whole block.
set_option maxHeartbeats 1000000 in

theorem sound_kernel1 (c : Dev nD) (E : Set ℕ) (i : grid1.Coords)
    (arg1 : Memref sig .tc .vmem S2048x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S2048x1024 .bf16) (harg4 : arg4.IsWhole)
    (x0 : Vec F S2048x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_in (c : Dev nD) (t : Fin cfg1.N) :
    (∀ d, (dat1 V c).before 0 t d = iblk1 V c 0 t) ∧ (∀ d, (dat1 V c).before 1 t d = iblk1 V c 1 t)
      ∧ ∀ d, (dat1 V c).before 2 t d = iblk1 V c 2 t := by
  refine ⟨?_, ?_, ?_⟩ <;> intro d <;>
    exact ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨b0, b1, b2⟩ := before1_in V c t
  simp only [b0, b1, b2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2Runs.lean ====
import proofs.«401961_j51299089383807_3_alg».proof.Proof.Gen.Kernel.Launch
import proofs.«401961_j51299089383807_3_alg».proof.Proof.Gen.Kernel.Skeleton
import proofs.«401961_j51299089383807_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 2).val) 0#32)) 0#32) = 1#1

-- The key tile is the innermost grid axis, so the first branch is taken exactly at the even points.
theorem hcond2_0 : ∀ t : Fin cfg2.N, cond2_0 (grid2.coords t) ↔ t.val % 2 = 0 :=
  (by decide +kernel : ∀ t : Fin grid2.N, cond2_0 (grid2.coords t) ↔ t.val % 2 = 0)

abbrev cond2_1 (i : grid2.Coords) : Prop := k2_cond2 i = 1#1

theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel

theorem liveAt2_1 : ∀ t : Fin cfg2.N, cfg2.idle 1 (grid2.coords t) = false := by decide +kernel

theorem liveAt2_2 : ∀ t : Fin cfg2.N, cfg2.idle 2 (grid2.coords t) = false := by decide +kernel

theorem liveAt2_3 : ∀ t : Fin cfg2.N, cfg2.idle 3 (grid2.coords t) = false := by decide +kernel

theorem liveAt2_4 : ∀ t : Fin cfg2.N, cfg2.idle 4 (grid2.coords t) = false := by decide +kernel

theorem idleAt2_5_A : ∀ t : Fin cfg2.N, cond2_0 (grid2.coords t) → ¬cond2_1 (grid2.coords t) → cfg2.idle 5 (grid2.coords t) = true := by decide +kernel

theorem noFlush2_5_A : ∀ t : Fin cfg2.N, cond2_0 (grid2.coords t) → ¬cond2_1 (grid2.coords t) → (cfg2.win 5).flush t = false := by decide +kernel

theorem liveAt2_5_C : ∀ t : Fin cfg2.N, ¬cond2_0 (grid2.coords t) → cond2_1 (grid2.coords t) → cfg2.idle 5 (grid2.coords t) = false := by decide +kernel

abbrev VO2_5 : View sig .tc .vmem S1x1024x1024 .f32 := (Memref.whole cc2_stg5_0 : Memref sig .tc .vmem S1x1024x1024 .f32).view

abbrev ms2_0 (t : Fin cfg2.N) : Memref sig .tc .vmem S1x1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024x1024 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1024x1024 .f32 := win2_5.stage (cfg2.slots t 5)
abbrev hs2_5 (t : Fin cfg2.N) : (ms2_5 t).IsWhole := hstage2_5 ((cfg2.slots t 5).cast nbuf2_5)

abbrev scM2_0 : Memref sig .tc .vmem S1024x1024 .bf16 := Memref.whole cc2_scratch0
abbrev scM2_1 : Memref sig .tc .vmem S1024x1 .f32 := Memref.whole cc2_scratch1
abbrev scM2_2 : Memref sig .tc .vmem S1024x1 .f32 := Memref.whole cc2_scratch2
abbrev scM2_3 : Memref sig .tc .vmem S1024x1024 .f32 := Memref.whole cc2_scratch3

abbrev VS2_0 : View sig .tc .vmem S1024x1024 .bf16 := scM2_0.view
abbrev VS2_1 : View sig .tc .vmem S1024x1 .f32 := scM2_1.view
abbrev VS2_2 : View sig .tc .vmem S1024x1 .f32 := scM2_2.view
abbrev VS2_3 : View sig .tc .vmem S1024x1024 .f32 := scM2_3.view

def Rest2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f))

theorem sepA2 (P Q R : sProp 𝕄) : iprop((P ∗ Q) ∗ R) = iprop(P ∗ (Q ∗ R)) :=
  BI.equiv_iff.mp ⟨BI.sep_assoc, BI.sep_assoc'⟩

theorem PhiA2_eq (c : Dev nD) :
    (Pipeline.ΦA spec2 c : sProp 𝕄)
      = iprop(iprop(Rest2 (F := F) c ∗ (∃ d, owns (c : Thread nD τ) scM2_0 fullShare d) ∗ (∃ d, owns (c : Thread nD τ) scM2_1 fullShare d)
          ∗ (∃ d, owns (c : Thread nD τ) scM2_2 fullShare d) ∗ (∃ d, owns (c : Thread nD τ) scM2_3 fullShare d)) ∗ (∃ r, prngReg c r)) := by
  unfold Pipeline.ΦA Rest2; rw [scopedRest2_eq]; simp only [scM2_0, scM2_1, scM2_2, scM2_3, owns_whole, sepA2]
  rfl

-- The body's ten operands, each a whole buffer.
structure Mem2 where
  a3 : Memref sig .tc .vmem S1x1024x1024 .f32
  h3 : a3.IsWhole
  a4 : Memref sig .tc .vmem S1024x1024 .bf16
  h4 : a4.IsWhole
  a5 : Memref sig .tc .vmem S1x1024 .f32
  h5 : a5.IsWhole
  a6 : Memref sig .tc .vmem S1x1024x1024 .bf16
  h6 : a6.IsWhole
  a7 : Memref sig .tc .vmem S1x1024x1024 .bf16
  h7 : a7.IsWhole
  a8 : Memref sig .tc .vmem S1x1024x1024 .f32
  h8 : a8.IsWhole
  a9 : Memref sig .tc .vmem S1024x1024 .bf16
  h9 : a9.IsWhole
  a10 : Memref sig .tc .vmem S1024x1 .f32
  h10 : a10.IsWhole
  a11 : Memref sig .tc .vmem S1024x1 .f32
  h11 : a11.IsWhole
  a12 : Memref sig .tc .vmem S1024x1024 .f32
  h12 : a12.IsWhole

end Cert.Kernel.Fr

end
-- ==== Proof.K.Reg2RunA.lean ====
import proofs.«401961_j51299089383807_3_alg».proof.Proof.K.Reg2Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- An even point stores all four scratch buffers whole before reading them, so it runs from any scratch contents.
set_option maxHeartbeats 1000000 in

noncomputable def kernelRun2_A (c : Dev nD) (i : grid2.Coords) (a : Mem2) (hc0 : cond2_0 i) (hc1 : ¬cond2_1 i)
    (x0 : Vec F S1x1024x1024 .f32) (x1 : Vec F S1024x1024 .bf16) (x2 : Vec F S1x1024 .f32) (x3 : Vec F S1x1024x1024 .bf16) (x4 : Vec F S1x1024x1024 .bf16) :
    Σ' (LS0 : List (View.Piece (Elt F) S1024x1024 .bf16)) (LS1 LS2 : List (View.Piece (Elt F) S1024x1 .f32)), { LS3 : List (View.Piece (Elt F) S1024x1024 .f32) //
      ∀ (xi5 : Vec F S1x1024x1024 .f32) (E : Set ℕ) (K : PUnit → sProp 𝕄),
        iprop(owns (c : Thread nD τ) a.a3 fullShare x0 ∗ owns (c : Thread nD τ) a.a4 fullShare x1 ∗ owns (c : Thread nD τ) a.a5 fullShare x2 ∗ owns (c : Thread nD τ) a.a6 fullShare x3 ∗ owns (c : Thread nD τ) a.a7 fullShare x4 ∗ owns (c : Thread nD τ) a.a8 fullShare xi5
            ∗ (∃ d, owns (c : Thread nD τ) a.a9 fullShare d) ∗ (∃ d, owns (c : Thread nD τ) a.a10 fullShare d) ∗ (∃ d, owns (c : Thread nD τ) a.a11 fullShare d) ∗ (∃ d, owns (c : Thread nD τ) a.a12 fullShare d)
            ∗ (iprop(owns (c : Thread nD τ) a.a3 fullShare x0 ∗ owns (c : Thread nD τ) a.a4 fullShare x1 ∗ owns (c : Thread nD τ) a.a5 fullShare x2 ∗ owns (c : Thread nD τ) a.a6 fullShare x3 ∗ owns (c : Thread nD τ) a.a7 fullShare x4 ∗ owns (c : Thread nD τ) a.a8 fullShare xi5
                ∗ (∃ f, a.a9.view.loc (c : Thread nD τ) ↦[a.a9.view.set]{fullShare} a.a9.view.writes (Elt F) f LS0) ∗ (∃ f, a.a10.view.loc (c : Thread nD τ) ↦[a.a10.view.set]{fullShare} a.a10.view.writes (Elt F) f LS1) ∗ (∃ f, a.a11.view.loc (c : Thread nD τ) ↦[a.a11.view.set]{fullShare} a.a11.view.writes (Elt F) f LS2) ∗ (∃ f, a.a12.view.loc (c : Thread nD τ) ↦[a.a12.view.set]{fullShare} a.a12.view.writes (Elt F) f LS3)) -∗ K ⟨⟩))
          ⊢ wp frame (wpE (defs₀ (F := F)) Variants.none c none) E (cc2__fused_attn_kernel i a.a3 a.h3 a.a4 a.h4 a.a5 a.h5 a.a6 a.h6 a.a7 a.h7 a.a8 a.h8 a.a9 a.h9 a.a10 a.h10 a.a11 a.h11 a.a12 a.h12) K } := by
  obtain ⟨arg3, harg3, arg4, harg4, arg5, harg5, arg6, harg6, arg7, harg7, arg8, harg8, arg9, harg9, arg10, harg10, arg11, harg11, arg12, harg12⟩ := a
  refine ⟨?_, ?_, ?_, ?_, fun xi5 E K => ?run⟩
  case run =>
    dsimp only
    simp only [cc2__fused_attn_kernel_eq_skeleton]; unfold cc2__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; iexact HS3

end Cert.Kernel.Fr

end
-- ==== Proof.K.Reg2RunC.lean ====
import proofs.«401961_j51299089383807_3_alg».proof.Proof.K.Reg2RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- An odd point reads the carried state, leaves the query tile as it was, and stores the output block.
set_option maxHeartbeats 1000000 in

noncomputable def kernelRun2_C (c : Dev nD) (i : grid2.Coords) (a : Mem2) (hc0 : ¬cond2_0 i) (hc1 : cond2_1 i)
    (x0 : Vec F S1x1024x1024 .f32) (x1 : Vec F S1024x1024 .bf16) (x2 : Vec F S1x1024 .f32) (x3 : Vec F S1x1024x1024 .bf16) (x4 : Vec F S1x1024x1024 .bf16) (xs0 : Vec F S1024x1024 .bf16) (xs1 : Vec F S1024x1 .f32) (xs2 : Vec F S1024x1 .f32) (xs3 : Vec F S1024x1024 .f32) :
    Σ' (L5 : List (View.Piece (Elt F) S1x1024x1024 .f32)) (LS1 LS2 : List (View.Piece (Elt F) S1024x1 .f32)), { LS3 : List (View.Piece (Elt F) S1024x1024 .f32) //
      ∀ (E : Set ℕ) (K : PUnit → sProp 𝕄),
        iprop(owns (c : Thread nD τ) a.a3 fullShare x0 ∗ owns (c : Thread nD τ) a.a4 fullShare x1 ∗ owns (c : Thread nD τ) a.a5 fullShare x2 ∗ owns (c : Thread nD τ) a.a6 fullShare x3 ∗ owns (c : Thread nD τ) a.a7 fullShare x4 ∗ (∃ d, owns (c : Thread nD τ) a.a8 fullShare d)
            ∗ owns (c : Thread nD τ) a.a9 fullShare xs0 ∗ owns (c : Thread nD τ) a.a10 fullShare xs1 ∗ owns (c : Thread nD τ) a.a11 fullShare xs2 ∗ owns (c : Thread nD τ) a.a12 fullShare xs3
            ∗ (iprop(owns (c : Thread nD τ) a.a3 fullShare x0 ∗ owns (c : Thread nD τ) a.a4 fullShare x1 ∗ owns (c : Thread nD τ) a.a5 fullShare x2 ∗ owns (c : Thread nD τ) a.a6 fullShare x3 ∗ owns (c : Thread nD τ) a.a7 fullShare x4 ∗ (∃ f, a.a8.view.loc (c : Thread nD τ) ↦[a.a8.view.set]{fullShare} a.a8.view.writes (Elt F) f L5)
                ∗ owns (c : Thread nD τ) a.a9 fullShare xs0 ∗ (∃ f, a.a10.view.loc (c : Thread nD τ) ↦[a.a10.view.set]{fullShare} a.a10.view.writes (Elt F) f LS1) ∗ (∃ f, a.a11.view.loc (c : Thread nD τ) ↦[a.a11.view.set]{fullShare} a.a11.view.writes (Elt F) f LS2) ∗ (∃ f, a.a12.view.loc (c : Thread nD τ) ↦[a.a12.view.set]{fullShare} a.a12.view.writes (Elt F) f LS3)) -∗ K ⟨⟩))
          ⊢ wp frame (wpE (defs₀ (F := F)) Variants.none c none) E (cc2__fused_attn_kernel i a.a3 a.h3 a.a4 a.h4 a.a5 a.h5 a.a6 a.h6 a.a7 a.h7 a.a8 a.h8 a.a9 a.h9 a.a10 a.h10 a.a11 a.h11 a.a12 a.h12) K } := by
  obtain ⟨arg3, harg3, arg4, harg4, arg5, harg5, arg6, harg6, arg7, harg7, arg8, harg8, arg9, harg9, arg10, harg10, arg11, harg11, arg12, harg12⟩ := a
  refine ⟨?_, ?_, ?_, ?_, fun E K => ?run⟩
  case run =>
    dsimp only
    simp only [cc2__fused_attn_kernel_eq_skeleton]; unfold cc2__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]; · iexists _; iexact HS1
    isplitl [HS2]; · iexists _; iexact HS2
    iexists _; iexact HS3

end Cert.Kernel.Fr

end
-- ==== Proof.K.Reg2.lean ====
import proofs.«401961_j51299089383807_3_alg».proof.Proof.K.Reg2RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev mem2 (t : Fin cfg2.N) : Mem2 :=
  ⟨ms2_0 t, hs2_0 t, ms2_1 t, hs2_1 t, ms2_2 t, hs2_2 t, ms2_3 t, hs2_3 t, ms2_4 t, hs2_4 t, ms2_5 t, hs2_5 t,
    scM2_0, Memref.isWhole_whole _, scM2_1, Memref.isWhole_whole _, scM2_2, Memref.isWhole_whole _, scM2_3, Memref.isWhole_whole _⟩

-- The carried state: query tile, running maximum, normaliser, weighted sum.
abbrev St2 : Type := Vec F S1024x1024 .bf16 × Vec F S1024x1 .f32 × Vec F S1024x1 .f32 × Vec F S1024x1024 .f32

-- A buffer's contents after a run: the pieces found, read back.
abbrev rd {S : Shape} {φ : EltTy} (v : View sig .tc .vmem S φ) (L : List (View.Piece (Elt F) S φ)) : Vec F S φ :=
  v.read (Elt F) (v.writes (Elt F) v.junk L)

def outA (c : Dev nD) (i : grid2.Coords) (a : Mem2) (hc0 : cond2_0 i) (hc1 : ¬cond2_1 i) (x0 : Vec F S1x1024x1024 .f32) (x1 : Vec F S1024x1024 .bf16) (x2 : Vec F S1x1024 .f32) (x3 x4 : Vec F S1x1024x1024 .bf16) : St2 (F := F) :=
  (rd VS2_0 (kernelRun2_A c i a hc0 hc1 x0 x1 x2 x3 x4).1, rd VS2_1 (kernelRun2_A c i a hc0 hc1 x0 x1 x2 x3 x4).2.1,
    rd VS2_2 (kernelRun2_A c i a hc0 hc1 x0 x1 x2 x3 x4).2.2.1, rd VS2_3 (kernelRun2_A c i a hc0 hc1 x0 x1 x2 x3 x4).2.2.2.1)

def outC (c : Dev nD) (i : grid2.Coords) (a : Mem2) (hc0 : ¬cond2_0 i) (hc1 : cond2_1 i) (x0 : Vec F S1x1024x1024 .f32) (x1 : Vec F S1024x1024 .bf16) (x2 : Vec F S1x1024 .f32) (x3 x4 : Vec F S1x1024x1024 .bf16)
    (s : St2 (F := F)) : Vec F S1x1024x1024 .f32 × St2 (F := F) :=
  (rd VO2_5 (kernelRun2_C c i a hc0 hc1 x0 x1 x2 x3 x4 s.1 s.2.1 s.2.2.1 s.2.2.2).1, s.1, rd VS2_1 (kernelRun2_C c i a hc0 hc1 x0 x1 x2 x3 x4 s.1 s.2.1 s.2.2.1 s.2.2.2).2.1,
    rd VS2_2 (kernelRun2_C c i a hc0 hc1 x0 x1 x2 x3 x4 s.1 s.2.1 s.2.2.1 s.2.2.2).2.2.1, rd VS2_3 (kernelRun2_C c i a hc0 hc1 x0 x1 x2 x3 x4 s.1 s.2.1 s.2.2.1 s.2.2.2).2.2.2.1)

theorem c0_of_even (t : Fin cfg2.N) (h0 : t.val % 2 = 0) : cond2_0 (grid2.coords t) := (hcond2_0 t).mpr h0
theorem notC1_of_even (t : Fin cfg2.N) (h0 : t.val % 2 = 0) : ¬cond2_1 (grid2.coords t) := fun h => by
  have h1 := (hcond2_1 t).mp h; omega
theorem notC0_of_odd (t : Fin cfg2.N) (h0 : ¬t.val % 2 = 0) : ¬cond2_0 (grid2.coords t) := fun h => h0 ((hcond2_0 t).mp h)
theorem c1_of_odd (t : Fin cfg2.N) (h0 : ¬t.val % 2 = 0) : cond2_1 (grid2.coords t) := (hcond2_1 t).mpr (by omega)

abbrev evenAt (c : Dev nD) (t : Fin cfg2.N) (h0 : t.val % 2 = 0) : St2 (F := F) :=
  outA c (grid2.coords t) (mem2 t) (c0_of_even t h0) (notC1_of_even t h0) (iblk2 V c 0 t) (iblk2 V c 1 t) (iblk2 V c 2 t) (iblk2 V c 3 t) (iblk2 V c 4 t)

abbrev oddAt (c : Dev nD) (t : Fin cfg2.N) (h0 : ¬t.val % 2 = 0) (s : St2 (F := F)) : Vec F S1x1024x1024 .f32 × St2 (F := F) :=
  outC c (grid2.coords t) (mem2 t) (notC0_of_odd t h0) (c1_of_odd t h0) (iblk2 V c 0 t) (iblk2 V c 1 t) (iblk2 V c 2 t) (iblk2 V c 3 t) (iblk2 V c 4 t) s

-- At an even point nothing is stored into the output window: a placeholder nothing consults.
def out2_A_5 : Vec F S1x1024x1024 .f32 := VO2_5.read (Elt F) VO2_5.junk

-- After point `n`: an even point starts afresh from its input blocks, an odd point continues from what the point before left.
def outsAt2 (c : Dev nD) : (n : ℕ) → n < cfg2.N → Vec F S1x1024x1024 .f32 × St2 (F := F)
  | 0, hn => (out2_A_5 (F := F), evenAt V c ⟨0, hn⟩ (Nat.zero_mod _))
  | n + 1, hn =>
    if h0 : (n + 1) % 2 = 0 then (out2_A_5 (F := F), evenAt V c ⟨n + 1, hn⟩ h0)
    else oddAt V c ⟨n + 1, hn⟩ h0 (outsAt2 c n (Nat.lt_of_succ_lt hn)).2

theorem outsAt2_A (c : Dev nD) (t : Fin cfg2.N) (h0 : t.val % 2 = 0) :
    outsAt2 V c t.val t.isLt = (out2_A_5 (F := F), evenAt V c t h0) := by
  obtain ⟨n, hn⟩ := t
  cases n with
  | zero => exact rfl
  | succ n => exact (dif_pos h0).trans rfl

theorem outsAt2_C (c : Dev nD) (t : Fin cfg2.N) (h0 : ¬t.val % 2 = 0) :
    outsAt2 V c t.val t.isLt = oddAt V c t h0 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans rfl

-- Between points the four scratch buffers hold the carried state.
def Carried (c : Dev nD) (s : St2 (F := F)) : sProp 𝕄 :=
  iprop(iprop(Rest2 (F := F) c ∗ owns (c : Thread nD τ) scM2_0 fullShare s.1 ∗ owns (c : Thread nD τ) scM2_1 fullShare s.2.1
      ∗ owns (c : Thread nD τ) scM2_2 fullShare s.2.2.1 ∗ owns (c : Thread nD τ) scM2_3 fullShare s.2.2.2) ∗ (∃ r, prngReg c r))

-- Forgetting the carried state gives back what the launch handed over.
theorem Carried_forget (c : Dev nD) (s : St2 (F := F)) : Carried c s ⊢ Pipeline.ΦA spec2 c := by
  unfold Carried; rw [PhiA2_eq]
  iintro ⟨⟨HR, HS0, HS1, HS2, HS3⟩, Hg⟩
  isplitr [Hg]
  · isplitl [HR]; · iexact HR
    isplitl [HS0]; · iexists _; iexact HS0
    isplitl [HS1]; · iexists _; iexact HS1
    isplitl [HS2]; · iexists _; iexact HS2
    iexists _; iexact HS3
  iexact Hg

def PhiS2 (c : Dev nD) : (n : ℕ) → n ≤ cfg2.N → sProp 𝕄
  | 0, _ => Pipeline.ΦA spec2 c
  | n + 1, hn => Carried c (outsAt2 V c n hn).2

theorem PhiS2_pos (c : Dev nD) (n : ℕ) (h : n ≤ cfg2.N) (hz : n ≠ 0) :
    PhiS2 V c n h = Carried c (outsAt2 V c (n - 1) (by omega)).2 := by
  cases n with
  | zero => exact absurd rfl hz
  | succ n => rfl

theorem PhiS2_forget (c : Dev nD) (n : ℕ) (h : n ≤ cfg2.N) : PhiS2 V c n h ⊢ Pipeline.ΦA spec2 c := by
  cases n with
  | zero => exact Idealize.SL.BI.Entails.refl _
  | succ n => exact Carried_forget c _

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ (∀ d, (dat2 V c).before 3 t d = iblk2 V c 3 t)
      ∧ ∀ d, (dat2 V c).before 4 t d = iblk2 V c 4 t := by
  refine ⟨?_, ?_, ?_, ?_, ?_⟩ <;> intro d <;>
    exact ((dat2 V c).before_in_eq_fetched _ rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
-- An even point forgets the carried state and starts a new one; an odd point advances it and stores the output block.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨b0, b1, b2, b3, b4⟩ := before2 V c t
  simp only [b0, b1, b2, b3, b4]
  rw [show (dat2 V c).owesAt () t.succ = (dat2 V c).owesAt () t.castSucc from rfl]
  rw [show (dat2 V c).Φ t.succ = Carried c (outsAt2 V c t.val t.isLt).2 from rfl, PhiS2_castSucc V c t]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  rw [show (dat2 V c).leavesExact 4 t = owns (c : Thread nD τ) (ms2_4 t) fullShare ((dat2 V c).after 4 t) from by
      unfold Dat.leavesExact; rw [liveAt2_4 t], after2_4]
  by_cases h0 : t.val % 2 = 0
  · rw [Dat.leavesExact_idle (dat2 V c) 5 t (idleAt2_5_A t (c0_of_even t h0) (notC1_of_even t h0)) (noFlush2_5_A t (c0_of_even t h0) (notC1_of_even t h0))]
    rw [outsAt2_A V c t h0]
    refine BIBase.Entails.trans (sep_mono_left (PhiS2_forget V c _ _)) ?_
    rw [PhiA2_eq]
    dsimp only [Carried, evenAt, outA, rd]
    iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) (mem2 t) (c0_of_even t h0) (notC1_of_even t h0) (iblk2 V c 0 t) (iblk2 V c 1 t) (iblk2 V c 2 t) (iblk2 V c 3 t) (iblk2 V c 4 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, ⟨%es0, HS0⟩, ⟨%es1, HS1⟩, ⟨%es2, HS2⟩, ⟨%es3, HS3⟩⟩
    isplitl [HR HS0 HS1 HS2 HS3 Hg]
    · isplitl [HR HS0 HS1 HS2 HS3]
      · isplitl [HR]; · iexact HR
        isplitl [HS0]; · ihave H' := (Ring.owns_of_writes_tiledL VS2_0 S1024x1024.size) $$ HS0; iapply H'; ipureintro; sl_kernel_rfl
        isplitl [HS1]; · ihave H' := (Ring.owns_of_writes_tiledL VS2_1 S1024x1.size) $$ HS1; iapply H'; ipureintro; sl_kernel_rfl
        isplitl [HS2]; · ihave H' := (Ring.owns_of_writes_tiledL VS2_2 S1024x1.size) $$ HS2; iapply H'; ipureintro; sl_kernel_rfl
        ihave H' := (Ring.owns_of_writes_tiledL VS2_3 S1024x1024.size) $$ HS3; iapply H'; ipureintro; sl_kernel_rfl
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [show (dat2 V c).leavesExact 5 t = owns (c : Thread nD τ) (ms2_5 t) fullShare ((dat2 V c).after 5 t) from by
      unfold Dat.leavesExact; rw [liveAt2_5_C t (notC0_of_odd t h0) (c1_of_odd t h0)], after2_5]
    rw [outsAt2_C V c t h0, PhiS2_pos V c _ _ (fun e => h0 (by rw [e]))]
    dsimp only [Carried, oddAt, outC, rd]
    iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
    iapply ((kernelRun2_C c (grid2.coords t) (mem2 t) (notC0_of_odd t h0) (c1_of_odd t h0) (iblk2 V c 0 t) (iblk2 V c 1 t) (iblk2 V c 2 t) (iblk2 V c 3 t) (iblk2 V c 4 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, ⟨%e5, H5⟩, HS0, ⟨%es1, HS1⟩, ⟨%es2, HS2⟩, ⟨%es3, HS3⟩⟩
    isplitl [HR HS0 HS1 HS2 HS3 Hg]
    · isplitl [HR HS0 HS1 HS2 HS3]
      · isplitl [HR]; · iexact HR
        isplitl [HS0]; · iexact HS0
        isplitl [HS1]; · ihave H' := (Ring.owns_of_writes_tiledL VS2_1 S1024x1.size) $$ HS1; iapply H'; ipureintro; sl_kernel_rfl
        isplitl [HS2]; · ihave H' := (Ring.owns_of_writes_tiledL VS2_2 S1024x1.size) $$ HS2; iapply H'; ipureintro; sl_kernel_rfl
        ihave H' := (Ring.owns_of_writes_tiledL VS2_3 S1024x1024.size) $$ HS3; iapply H'; ipureintro; sl_kernel_rfl
      iexact Hg
    isplitl [Ho]; · iexact Ho
    isplitl [H0]; · iexact H0
    isplitl [H1]; · iexact H1
    isplitl [H2]; · iexact H2
    isplitl [H3]; · iexact H3
    isplitl [H4]; · iexact H4
    ihave H' := (Ring.owns_of_writes_tiledL VO2_5 S1x1024x1024.size) $$ H5; iapply H'; ipureintro; sl_kernel_rfl

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Idealize.SL.BI.Entails.refl _

theorem hout2 (c : Dev nD) : (dat2 V c).Φ (Fin.last cfg2.N) ⊢ Pipeline.ΦA spec2 c :=
  PhiS2_forget V c (Fin.last cfg2.N).val (Nat.le_of_lt_succ (Fin.last cfg2.N).isLt)

end Cert.Kernel.Fr

end
-- ==== Proof.K.Fold.lean ====
import proofs.«401961_j51299089383807_3_alg».proof.Proof.K.Reg0
import proofs.«401961_j51299089383807_3_alg».proof.Proof.K.Reg1
import proofs.«401961_j51299089383807_3_alg».proof.Proof.K.Reg2

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps1_W : List (Ref sig .tc) := [main_v6, main_v7]
theorem hostOps1_writes : (hostOps1 : List (HloOp τ sig (Elt F))).Forall fun op => op.writes ⊆ (hostOps1_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps2_W : List (Ref sig .tc) := [main_v9, main_v10, main_v11]
theorem hostOps2_writes : (hostOps2 : List (HloOp τ sig (Elt F))).Forall fun op => op.writes ⊆ (hostOps2_W.map (Proc.devRef (τ := τ) .tc)).toFinset := by
  simp only [List.Forall]
  refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

-- The buffer contents between @main's six segments, folded from the launch memory.
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

-- A buffer no host stretch writes and no projection launch holds as an array keeps its launch contents up to the third launch.
theorem W5_arg (c : Dev nD) (r : Ref sig .tc)
    (h : r ∉ hostOps0_W ∧ r ∉ hostOps1_W ∧ r ∉ hostOps2_W ∧ (∀ w, Pipeline.arrRef spec0 w ≠ r) ∧ ∀ w, Pipeline.arrRef spec1 w ≠ r) :
    W5 m ρ c (Proc.devRef .tc r) = m ((c : Thread nD τ).loc r) :=
  (W5_of m ρ c r h.2.2.1).trans <| (W4_of_ne m ρ c r h.2.2.2.2).trans <| (W3_of m ρ c r h.2.1).trans <|
    (W2_of_ne m ρ c r h.2.2.2.1).trans <| (W1_of m ρ c r h.1).trans rfl

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

theorem W6_main_arg0 (c : Dev nD) : W6 m ρ c (Proc.devRef .tc main_arg0) = m ((c : Thread nD τ).loc main_arg0) :=
  ((W6_arr m ρ c 0).trans (((dat2 (V5 m ρ) c).arrAt_in 0 rfl _).trans (A_eq2 (V5 m ρ) c 0))).trans (W5_arg m ρ c main_arg0 (by decide))
theorem W6_arg (c : Dev nD) (r : Ref sig .tc)
    (h : r ∉ hostOps0_W ∧ r ∉ hostOps1_W ∧ r ∉ hostOps2_W ∧ (∀ w, Pipeline.arrRef spec0 w ≠ r) ∧ ∀ w, Pipeline.arrRef spec1 w ≠ r)
    (h2 : ∀ w, Pipeline.arrRef spec2 w ≠ r) : W6 m ρ c (Proc.devRef .tc r) = m ((c : Thread nD τ).loc r) :=
  (W6_of_ne m ρ c r h2).trans (W5_arg m ρ c r h)

theorem W6_main_v12 (c : Dev nD) : W6 m ρ c (Proc.devRef .tc main_v12) = (dat2 (V5 m ρ) c).arrAt 5 cfg2.N :=
  W6_arr m ρ c 5

end Cert.Kernel.Fr

end
-- ==== Proof.K.Run.lean ====
import proofs.«401961_j51299089383807_3_alg».proof.Proof.K.Fold

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m ρ c) ∗ ∃ r, prngReg c r)

-- A launch as a segment of @main: buffers in at one boundary's contents, out with the launch's arrays at their final contents.
abbrev PC (p : Fin 3) := Pipeline.pin (pcfgs (F := F)) adm p

abbrev Wout (p : Fin 3) (Wi : Dev nD → Valuation τ sig (Elt F)) (c : Dev nD) : Valuation τ sig (Elt F) :=
  Pipeline.withArrays (PC (F := F) p).spec c (Wi c) fun w => (pdats m ρ p c).arrAt w (PC (F := F) p).N

set_option backward.isDefEq.respectTransparency.types false in
def mkReg (p : Fin 3) (launch : Pipeline.LaunchFacts (nD := nD) (τ := τ) cfgs p) (Wi : Dev nD → Valuation τ sig (Elt F))
    (hbody : ∀ c, BodyObligation (pdats m ρ p c) (defs₀ (F := F)) 𝒱₀ () Set.univ)
    (hq : ∀ c w, (pdats m ρ p c).q w = fullShare) (howed : ∀ c t, (pdats m ρ p c).owed t = 0)
    (hrec : ∀ c x, x ∈ (pdats m ρ p c).recorded 0)
    (hA : ∀ c w, (pdats m ρ p c).A w = Wi c (Pipeline.arrRef (PC (F := F) p).spec w))
    (hΦi : ∀ c, Pipeline.ΦA (PC (F := F) p).spec c ⊢ (pdats m ρ p c).Φ 0)
    (hΦo : ∀ c, (pdats m ρ p c).Φ (Fin.last _) ⊢ Pipeline.ΦA (PC (F := F) p).spec c) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wout m ρ p Wi c) ∗ R c)
  X c := iprop(∃ r, prngReg c r)
  Y c := iprop(∃ r, prngReg c r)
  Z c := Pipeline.unscopedRest (Ix := Unit) (Name := ℕ) (U := UR sig nD τ) (Lvl := ℕ) (PC (F := F) p).spec c (fun b => Wi c b)
  hentry c := by
    rw [Pipeline.ownSems0_none]
    have hsplit := Pipeline.arrays_of_unscopedBufs (p := p) (pcfgs (F := F)) adm (pdats m ρ) launch.win launch.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (hrec c _)
      rw [howed c]; iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    rw [Pipeline.ownSems0_none]
    refine BIBase.Entails.trans (hΦo c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (fun b => Wi c b) (fun b => Wout m ρ p Wi c b)
      ((pdats m ρ p c).arrAt · (PC (F := F) p).N)
      (fun w => (Pipeline.withArrays_arr (PC (F := F) p).spec launch.win.arr_inj c (Wi c) (fun w => (pdats m ρ p c).arrAt w (PC (F := F) p).N) w).symm)
      (fun b hb => Pipeline.withArrays_of_ne (PC (F := F) p).spec c (Wi c) (fun w => (pdats m ρ p c).arrAt w (PC (F := F) p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := mkReg m ρ 0 launch0 (W1 m ρ) (fun c => body_obligation0 (V1 m ρ) c) (fun _ _ => rfl) (fun _ _ => rfl) (fun _ _ => trivial) (fun _ _ => rfl)
  (fun _ => Idealize.SL.BI.Entails.refl _) (fun _ => Idealize.SL.BI.Entails.refl _)
def reg1 := mkReg m ρ 1 launch1 (W3 m ρ) (fun c => body_obligation1 (V3 m ρ) c) (fun _ _ => rfl) (fun _ _ => rfl) (fun _ _ => trivial) (fun _ _ => rfl)
  (fun _ => Idealize.SL.BI.Entails.refl _) (fun _ => Idealize.SL.BI.Entails.refl _)
def reg2 := mkReg m ρ 2 launch2 (W5 m ρ) (fun c => body_obligation2 (V5 m ρ) c) (fun _ _ => rfl) (fun _ _ => rfl) (fun _ _ => trivial) (fun _ _ => rfl)
  (hin2 (V5 m ρ)) (hout2 (V5 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

theorem main_run (c : Dev nD) : main (F := F) c = Pipeline.Seg.run (segs m ρ) := (main_chain c).trans (by chain_rfl)

-- @main is three host stretches and three launches; each segment takes the contents at one boundary to the next.
set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

-- Every buffer @main's launches do not write ends at its launch contents; the result buffer ends at the third launch's array.
theorem run_value : θ_run defs (onTc (τ := τ) (main (F := F))) ⟨m, fun _ => 0, ρ⟩ (fun r => ∀ c : Dev nD,
      r.2.mem ((c.tc : Thread nD τ).loc main_v12) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v12 (by decide))).trans (W6_main_v12 m ρ c),
    (h c _ (mem_uc main_arg0 (by decide))).trans (W6_main_arg0 m ρ c),
    (h c _ (mem_uc main_arg1 (by decide))).trans (W6_arg m ρ c main_arg1 (by decide) (by decide)),
    (h c _ (mem_uc main_arg2 (by decide))).trans (W6_arg m ρ c main_arg2 (by decide) (by decide)),
    (h c _ (mem_uc main_arg3 (by decide))).trans (W6_arg m ρ c main_arg3 (by decide) (by decide)),
    (h c _ (mem_uc main_arg4 (by decide))).trans (W6_arg m ρ c main_arg4 (by decide) (by decide)),
    (h c _ (mem_uc main_arg5 (by decide))).trans (W6_arg m ρ c main_arg5 (by decide) (by decide)),
    (h c _ (mem_uc main_arg6 (by decide))).trans (W6_arg m ρ c main_arg6 (by decide) (by decide)),
    (h c _ (mem_uc main_arg7 (by decide))).trans (W6_arg m ρ c main_arg7 (by decide) (by decide)),
    (h c _ (mem_uc main_arg8 (by decide))).trans (W6_arg m ρ c main_arg8 (by decide) (by decide))⟩) (run_all m ρ)

end Cert.Kernel.Fr

end
-- ==== Proof.KI.Reg0.lean ====
import proofs.«401961_j51299089383807_3_alg».proof.Proof.Gen.KernelIdeal.Launch
import proofs.«401961_j51299089383807_3_alg».proof.Proof.Gen.KernelIdeal.Skeleton
import proofs.«401961_j51299089383807_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2048x1024 := Rect.unit (s := S2048x1024) ![0, 0] S2048x1024.size inb_S2048x1024_S2048x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

def out0_3 (x0 : Vec F S2048x1024 .f32) (x1 : Vec F S1024x1024 .bf16) (x2 : Vec F S1x1024 .f32) : Vec F S2048x1024 .bf16 :=
  View.canon [⟨r0_0, k0_pay1 (View.ld x0 r0_0) (View.ld x1 r0_1) (View.ld x2 r0_2)⟩]

theorem cover0_3 (p0 : Vec F S2048x1024 .bf16) (y : S2048x1024.Idx) :
    ∃ pc ∈ ([⟨r0_0, p0⟩] : List (View.Piece (Elt F) S2048x1024 .bf16)), y ∈ pc.1.set :=
  View.cover_of_tiled [⟨r0_0, p0⟩] S2048x1024.size (by rfl) y

-- The body reads its three inputs whole and stores one whole block.
set_option maxHeartbeats 1000000 in

theorem sound_kernel0 (c : Dev nD) (E : Set ℕ) (i : grid0.Coords)
    (arg1 : Memref sig .tc .vmem S2048x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S2048x1024 .bf16) (harg4 : arg4.IsWhole)
    (x0 : Vec F S2048x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_in (c : Dev nD) (t : Fin cfg0.N) :
    (∀ d, (dat0 V c).before 0 t d = iblk0 V c 0 t) ∧ (∀ d, (dat0 V c).before 1 t d = iblk0 V c 1 t)
      ∧ ∀ d, (dat0 V c).before 2 t d = iblk0 V c 2 t := by
  refine ⟨?_, ?_, ?_⟩ <;> intro d <;>
    exact ((dat0 V c).before_in_eq_fetched _ rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  obtain ⟨b0, b1, b2⟩ := before0_in V c t
  simp only [b0, b1, b2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
import proofs.«401961_j51299089383807_3_alg».proof.Proof.Gen.KernelIdeal.Launch
import proofs.«401961_j51299089383807_3_alg».proof.Proof.Gen.KernelIdeal.Skeleton
import proofs.«401961_j51299089383807_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2048x1024 := Rect.unit (s := S2048x1024) ![0, 0] S2048x1024.size inb_S2048x1024_S2048x1024_0_0
abbrev r1_1 : Rect S1024x1024 := Rect.unit (s := S1024x1024) ![0, 0] S1024x1024.size inb_S1024x1024_S1024x1024_0_0
abbrev r1_2 : Rect S1x1024 := Rect.unit (s := S1x1024) ![0, 0] S1x1024.size inb_S1x1024_S1x1024_0_0

def out1_3 (x0 : Vec F S2048x1024 .f32) (x1 : Vec F S1024x1024 .bf16) (x2 : Vec F S1x1024 .f32) : Vec F S2048x1024 .bf16 :=
  View.canon [⟨r1_0, k1_pay1 (View.ld x0 r1_0) (View.ld x1 r1_1) (View.ld x2 r1_2)⟩]

theorem cover1_3 (p0 : Vec F S2048x1024 .bf16) (y : S2048x1024.Idx) :
    ∃ pc ∈ ([⟨r1_0, p0⟩] : List (View.Piece (Elt F) S2048x1024 .bf16)), y ∈ pc.1.set :=
  View.cover_of_tiled [⟨r1_0, p0⟩] S2048x1024.size (by rfl) y

-- The body reads its three inputs whole and stores one whole block.
set_option maxHeartbeats 1000000 in

theorem sound_kernel1 (c : Dev nD) (E : Set ℕ) (i : grid1.Coords)
    (arg1 : Memref sig .tc .vmem S2048x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S2048x1024 .bf16) (harg4 : arg4.IsWhole)
    (x0 : Vec F S2048x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_in (c : Dev nD) (t : Fin cfg1.N) :
    (∀ d, (dat1 V c).before 0 t d = iblk1 V c 0 t) ∧ (∀ d, (dat1 V c).before 1 t d = iblk1 V c 1 t)
      ∧ ∀ d, (dat1 V c).before 2 t d = iblk1 V c 2 t := by
  refine ⟨?_, ?_, ?_⟩ <;> intro d <;>
    exact ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨b0, b1, b2⟩ := before1_in V c t
  simp only [b0, b1, b2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2Runs.lean ====
import proofs.«401961_j51299089383807_3_alg».proof.Proof.Gen.KernelIdeal.Launch
import proofs.«401961_j51299089383807_3_alg».proof.Proof.Gen.KernelIdeal.Skeleton
import proofs.«401961_j51299089383807_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 2).val) 0#32)) 0#32) = 1#1

-- The key tile is the innermost grid axis, so the first branch is taken exactly at the even points.
theorem hcond2_0 : ∀ t : Fin cfg2.N, cond2_0 (grid2.coords t) ↔ t.val % 2 = 0 :=
  (by decide +kernel : ∀ t : Fin grid2.N, cond2_0 (grid2.coords t) ↔ t.val % 2 = 0)

abbrev cond2_1 (i : grid2.Coords) : Prop := k2_cond2 i = 1#1

theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel

theorem liveAt2_1 : ∀ t : Fin cfg2.N, cfg2.idle 1 (grid2.coords t) = false := by decide +kernel

theorem liveAt2_2 : ∀ t : Fin cfg2.N, cfg2.idle 2 (grid2.coords t) = false := by decide +kernel

theorem liveAt2_3 : ∀ t : Fin cfg2.N, cfg2.idle 3 (grid2.coords t) = false := by decide +kernel

theorem liveAt2_4 : ∀ t : Fin cfg2.N, cfg2.idle 4 (grid2.coords t) = false := by decide +kernel

theorem idleAt2_5_A : ∀ t : Fin cfg2.N, cond2_0 (grid2.coords t) → ¬cond2_1 (grid2.coords t) → cfg2.idle 5 (grid2.coords t) = true := by decide +kernel

theorem noFlush2_5_A : ∀ t : Fin cfg2.N, cond2_0 (grid2.coords t) → ¬cond2_1 (grid2.coords t) → (cfg2.win 5).flush t = false := by decide +kernel

theorem liveAt2_5_C : ∀ t : Fin cfg2.N, ¬cond2_0 (grid2.coords t) → cond2_1 (grid2.coords t) → cfg2.idle 5 (grid2.coords t) = false := by decide +kernel

abbrev VO2_5 : View sig .tc .vmem S1x1024x1024 .f32 := (Memref.whole cc2_stg5_0 : Memref sig .tc .vmem S1x1024x1024 .f32).view

abbrev ms2_0 (t : Fin cfg2.N) : Memref sig .tc .vmem S1x1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024x1024 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1024x1024 .f32 := win2_5.stage (cfg2.slots t 5)
abbrev hs2_5 (t : Fin cfg2.N) : (ms2_5 t).IsWhole := hstage2_5 ((cfg2.slots t 5).cast nbuf2_5)

abbrev scM2_0 : Memref sig .tc .vmem S1024x1024 .bf16 := Memref.whole cc2_scratch0
abbrev scM2_1 : Memref sig .tc .vmem S1024x1 .f32 := Memref.whole cc2_scratch1
abbrev scM2_2 : Memref sig .tc .vmem S1024x1 .f32 := Memref.whole cc2_scratch2
abbrev scM2_3 : Memref sig .tc .vmem S1024x1024 .f32 := Memref.whole cc2_scratch3

abbrev VS2_0 : View sig .tc .vmem S1024x1024 .bf16 := scM2_0.view
abbrev VS2_1 : View sig .tc .vmem S1024x1 .f32 := scM2_1.view
abbrev VS2_2 : View sig .tc .vmem S1024x1 .f32 := scM2_2.view
abbrev VS2_3 : View sig .tc .vmem S1024x1024 .f32 := scM2_3.view

def Rest2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f))

theorem sepA2 (P Q R : sProp 𝕄) : iprop((P ∗ Q) ∗ R) = iprop(P ∗ (Q ∗ R)) :=
  BI.equiv_iff.mp ⟨BI.sep_assoc, BI.sep_assoc'⟩

theorem PhiA2_eq (c : Dev nD) :
    (Pipeline.ΦA spec2 c : sProp 𝕄)
      = iprop(iprop(Rest2 (F := F) c ∗ (∃ d, owns (c : Thread nD τ) scM2_0 fullShare d) ∗ (∃ d, owns (c : Thread nD τ) scM2_1 fullShare d)
          ∗ (∃ d, owns (c : Thread nD τ) scM2_2 fullShare d) ∗ (∃ d, owns (c : Thread nD τ) scM2_3 fullShare d)) ∗ (∃ r, prngReg c r)) := by
  unfold Pipeline.ΦA Rest2; rw [scopedRest2_eq]; simp only [scM2_0, scM2_1, scM2_2, scM2_3, owns_whole, sepA2]
  rfl

-- The body's ten operands, each a whole buffer.
structure Mem2 where
  a3 : Memref sig .tc .vmem S1x1024x1024 .f32
  h3 : a3.IsWhole
  a4 : Memref sig .tc .vmem S1024x1024 .bf16
  h4 : a4.IsWhole
  a5 : Memref sig .tc .vmem S1x1024 .f32
  h5 : a5.IsWhole
  a6 : Memref sig .tc .vmem S1x1024x1024 .bf16
  h6 : a6.IsWhole
  a7 : Memref sig .tc .vmem S1x1024x1024 .bf16
  h7 : a7.IsWhole
  a8 : Memref sig .tc .vmem S1x1024x1024 .f32
  h8 : a8.IsWhole
  a9 : Memref sig .tc .vmem S1024x1024 .bf16
  h9 : a9.IsWhole
  a10 : Memref sig .tc .vmem S1024x1 .f32
  h10 : a10.IsWhole
  a11 : Memref sig .tc .vmem S1024x1 .f32
  h11 : a11.IsWhole
  a12 : Memref sig .tc .vmem S1024x1024 .f32
  h12 : a12.IsWhole

end Cert.KernelIdeal.Fr

end
-- ==== Proof.KI.Reg2RunA.lean ====
import proofs.«401961_j51299089383807_3_alg».proof.Proof.KI.Reg2Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- An even point stores all four scratch buffers whole before reading them, so it runs from any scratch contents.
set_option maxHeartbeats 1000000 in

noncomputable def kernelRun2_A (c : Dev nD) (i : grid2.Coords) (a : Mem2) (hc0 : cond2_0 i) (hc1 : ¬cond2_1 i)
    (x0 : Vec F S1x1024x1024 .f32) (x1 : Vec F S1024x1024 .bf16) (x2 : Vec F S1x1024 .f32) (x3 : Vec F S1x1024x1024 .bf16) (x4 : Vec F S1x1024x1024 .bf16) :
    Σ' (LS0 : List (View.Piece (Elt F) S1024x1024 .bf16)) (LS1 LS2 : List (View.Piece (Elt F) S1024x1 .f32)), { LS3 : List (View.Piece (Elt F) S1024x1024 .f32) //
      ∀ (xi5 : Vec F S1x1024x1024 .f32) (E : Set ℕ) (K : PUnit → sProp 𝕄),
        iprop(owns (c : Thread nD τ) a.a3 fullShare x0 ∗ owns (c : Thread nD τ) a.a4 fullShare x1 ∗ owns (c : Thread nD τ) a.a5 fullShare x2 ∗ owns (c : Thread nD τ) a.a6 fullShare x3 ∗ owns (c : Thread nD τ) a.a7 fullShare x4 ∗ owns (c : Thread nD τ) a.a8 fullShare xi5
            ∗ (∃ d, owns (c : Thread nD τ) a.a9 fullShare d) ∗ (∃ d, owns (c : Thread nD τ) a.a10 fullShare d) ∗ (∃ d, owns (c : Thread nD τ) a.a11 fullShare d) ∗ (∃ d, owns (c : Thread nD τ) a.a12 fullShare d)
            ∗ (iprop(owns (c : Thread nD τ) a.a3 fullShare x0 ∗ owns (c : Thread nD τ) a.a4 fullShare x1 ∗ owns (c : Thread nD τ) a.a5 fullShare x2 ∗ owns (c : Thread nD τ) a.a6 fullShare x3 ∗ owns (c : Thread nD τ) a.a7 fullShare x4 ∗ owns (c : Thread nD τ) a.a8 fullShare xi5
                ∗ (∃ f, a.a9.view.loc (c : Thread nD τ) ↦[a.a9.view.set]{fullShare} a.a9.view.writes (Elt F) f LS0) ∗ (∃ f, a.a10.view.loc (c : Thread nD τ) ↦[a.a10.view.set]{fullShare} a.a10.view.writes (Elt F) f LS1) ∗ (∃ f, a.a11.view.loc (c : Thread nD τ) ↦[a.a11.view.set]{fullShare} a.a11.view.writes (Elt F) f LS2) ∗ (∃ f, a.a12.view.loc (c : Thread nD τ) ↦[a.a12.view.set]{fullShare} a.a12.view.writes (Elt F) f LS3)) -∗ K ⟨⟩))
          ⊢ wp frame (wpE (defs₀ (F := F)) Variants.none c none) E (cc2__fused_attn_kernel i a.a3 a.h3 a.a4 a.h4 a.a5 a.h5 a.a6 a.h6 a.a7 a.h7 a.a8 a.h8 a.a9 a.h9 a.a10 a.h10 a.a11 a.h11 a.a12 a.h12) K } := by
  obtain ⟨arg3, harg3, arg4, harg4, arg5, harg5, arg6, harg6, arg7, harg7, arg8, harg8, arg9, harg9, arg10, harg10, arg11, harg11, arg12, harg12⟩ := a
  refine ⟨?_, ?_, ?_, ?_, fun xi5 E K => ?run⟩
  case run =>
    dsimp only
    simp only [cc2__fused_attn_kernel_eq_skeleton]; unfold cc2__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; iexact HS3

end Cert.KernelIdeal.Fr

end
-- ==== Proof.KI.Reg2RunC.lean ====
import proofs.«401961_j51299089383807_3_alg».proof.Proof.KI.Reg2RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- An odd point reads the carried state, leaves the query tile as it was, and stores the output block.
set_option maxHeartbeats 1000000 in

noncomputable def kernelRun2_C (c : Dev nD) (i : grid2.Coords) (a : Mem2) (hc0 : ¬cond2_0 i) (hc1 : cond2_1 i)
    (x0 : Vec F S1x1024x1024 .f32) (x1 : Vec F S1024x1024 .bf16) (x2 : Vec F S1x1024 .f32) (x3 : Vec F S1x1024x1024 .bf16) (x4 : Vec F S1x1024x1024 .bf16) (xs0 : Vec F S1024x1024 .bf16) (xs1 : Vec F S1024x1 .f32) (xs2 : Vec F S1024x1 .f32) (xs3 : Vec F S1024x1024 .f32) :
    Σ' (L5 : List (View.Piece (Elt F) S1x1024x1024 .f32)) (LS1 LS2 : List (View.Piece (Elt F) S1024x1 .f32)), { LS3 : List (View.Piece (Elt F) S1024x1024 .f32) //
      ∀ (E : Set ℕ) (K : PUnit → sProp 𝕄),
        iprop(owns (c : Thread nD τ) a.a3 fullShare x0 ∗ owns (c : Thread nD τ) a.a4 fullShare x1 ∗ owns (c : Thread nD τ) a.a5 fullShare x2 ∗ owns (c : Thread nD τ) a.a6 fullShare x3 ∗ owns (c : Thread nD τ) a.a7 fullShare x4 ∗ (∃ d, owns (c : Thread nD τ) a.a8 fullShare d)
            ∗ owns (c : Thread nD τ) a.a9 fullShare xs0 ∗ owns (c : Thread nD τ) a.a10 fullShare xs1 ∗ owns (c : Thread nD τ) a.a11 fullShare xs2 ∗ owns (c : Thread nD τ) a.a12 fullShare xs3
            ∗ (iprop(owns (c : Thread nD τ) a.a3 fullShare x0 ∗ owns (c : Thread nD τ) a.a4 fullShare x1 ∗ owns (c : Thread nD τ) a.a5 fullShare x2 ∗ owns (c : Thread nD τ) a.a6 fullShare x3 ∗ owns (c : Thread nD τ) a.a7 fullShare x4 ∗ (∃ f, a.a8.view.loc (c : Thread nD τ) ↦[a.a8.view.set]{fullShare} a.a8.view.writes (Elt F) f L5)
                ∗ owns (c : Thread nD τ) a.a9 fullShare xs0 ∗ (∃ f, a.a10.view.loc (c : Thread nD τ) ↦[a.a10.view.set]{fullShare} a.a10.view.writes (Elt F) f LS1) ∗ (∃ f, a.a11.view.loc (c : Thread nD τ) ↦[a.a11.view.set]{fullShare} a.a11.view.writes (Elt F) f LS2) ∗ (∃ f, a.a12.view.loc (c : Thread nD τ) ↦[a.a12.view.set]{fullShare} a.a12.view.writes (Elt F) f LS3)) -∗ K ⟨⟩))
          ⊢ wp frame (wpE (defs₀ (F := F)) Variants.none c none) E (cc2__fused_attn_kernel i a.a3 a.h3 a.a4 a.h4 a.a5 a.h5 a.a6 a.h6 a.a7 a.h7 a.a8 a.h8 a.a9 a.h9 a.a10 a.h10 a.a11 a.h11 a.a12 a.h12) K } := by
  obtain ⟨arg3, harg3, arg4, harg4, arg5, harg5, arg6, harg6, arg7, harg7, arg8, harg8, arg9, harg9, arg10, harg10, arg11, harg11, arg12, harg12⟩ := a
  refine ⟨?_, ?_, ?_, ?_, fun E K => ?run⟩
  case run =>
    dsimp only
    simp only [cc2__fused_attn_kernel_eq_skeleton]; unfold cc2__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]; · iexists _; iexact HS1
    isplitl [HS2]; · iexists _; iexact HS2
    iexists _; iexact HS3

end Cert.KernelIdeal.Fr

end
-- ==== Proof.KI.Reg2.lean ====
import proofs.«401961_j51299089383807_3_alg».proof.Proof.KI.Reg2RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev mem2 (t : Fin cfg2.N) : Mem2 :=
  ⟨ms2_0 t, hs2_0 t, ms2_1 t, hs2_1 t, ms2_2 t, hs2_2 t, ms2_3 t, hs2_3 t, ms2_4 t, hs2_4 t, ms2_5 t, hs2_5 t,
    scM2_0, Memref.isWhole_whole _, scM2_1, Memref.isWhole_whole _, scM2_2, Memref.isWhole_whole _, scM2_3, Memref.isWhole_whole _⟩

-- The carried state: query tile, running maximum, normaliser, weighted sum.
abbrev St2 : Type := Vec F S1024x1024 .bf16 × Vec F S1024x1 .f32 × Vec F S1024x1 .f32 × Vec F S1024x1024 .f32

-- A buffer's contents after a run: the pieces found, read back.
abbrev rd {S : Shape} {φ : EltTy} (v : View sig .tc .vmem S φ) (L : List (View.Piece (Elt F) S φ)) : Vec F S φ :=
  v.read (Elt F) (v.writes (Elt F) v.junk L)

def outA (c : Dev nD) (i : grid2.Coords) (a : Mem2) (hc0 : cond2_0 i) (hc1 : ¬cond2_1 i) (x0 : Vec F S1x1024x1024 .f32) (x1 : Vec F S1024x1024 .bf16) (x2 : Vec F S1x1024 .f32) (x3 x4 : Vec F S1x1024x1024 .bf16) : St2 (F := F) :=
  (rd VS2_0 (kernelRun2_A c i a hc0 hc1 x0 x1 x2 x3 x4).1, rd VS2_1 (kernelRun2_A c i a hc0 hc1 x0 x1 x2 x3 x4).2.1,
    rd VS2_2 (kernelRun2_A c i a hc0 hc1 x0 x1 x2 x3 x4).2.2.1, rd VS2_3 (kernelRun2_A c i a hc0 hc1 x0 x1 x2 x3 x4).2.2.2.1)

def outC (c : Dev nD) (i : grid2.Coords) (a : Mem2) (hc0 : ¬cond2_0 i) (hc1 : cond2_1 i) (x0 : Vec F S1x1024x1024 .f32) (x1 : Vec F S1024x1024 .bf16) (x2 : Vec F S1x1024 .f32) (x3 x4 : Vec F S1x1024x1024 .bf16)
    (s : St2 (F := F)) : Vec F S1x1024x1024 .f32 × St2 (F := F) :=
  (rd VO2_5 (kernelRun2_C c i a hc0 hc1 x0 x1 x2 x3 x4 s.1 s.2.1 s.2.2.1 s.2.2.2).1, s.1, rd VS2_1 (kernelRun2_C c i a hc0 hc1 x0 x1 x2 x3 x4 s.1 s.2.1 s.2.2.1 s.2.2.2).2.1,
    rd VS2_2 (kernelRun2_C c i a hc0 hc1 x0 x1 x2 x3 x4 s.1 s.2.1 s.2.2.1 s.2.2.2).2.2.1, rd VS2_3 (kernelRun2_C c i a hc0 hc1 x0 x1 x2 x3 x4 s.1 s.2.1 s.2.2.1 s.2.2.2).2.2.2.1)

theorem c0_of_even (t : Fin cfg2.N) (h0 : t.val % 2 = 0) : cond2_0 (grid2.coords t) := (hcond2_0 t).mpr h0
theorem notC1_of_even (t : Fin cfg2.N) (h0 : t.val % 2 = 0) : ¬cond2_1 (grid2.coords t) := fun h => by
  have h1 := (hcond2_1 t).mp h; omega
theorem notC0_of_odd (t : Fin cfg2.N) (h0 : ¬t.val % 2 = 0) : ¬cond2_0 (grid2.coords t) := fun h => h0 ((hcond2_0 t).mp h)
theorem c1_of_odd (t : Fin cfg2.N) (h0 : ¬t.val % 2 = 0) : cond2_1 (grid2.coords t) := (hcond2_1 t).mpr (by omega)

abbrev evenAt (c : Dev nD) (t : Fin cfg2.N) (h0 : t.val % 2 = 0) : St2 (F := F) :=
  outA c (grid2.coords t) (mem2 t) (c0_of_even t h0) (notC1_of_even t h0) (iblk2 V c 0 t) (iblk2 V c 1 t) (iblk2 V c 2 t) (iblk2 V c 3 t) (iblk2 V c 4 t)

abbrev oddAt (c : Dev nD) (t : Fin cfg2.N) (h0 : ¬t.val % 2 = 0) (s : St2 (F := F)) : Vec F S1x1024x1024 .f32 × St2 (F := F) :=
  outC c (grid2.coords t) (mem2 t) (notC0_of_odd t h0) (c1_of_odd t h0) (iblk2 V c 0 t) (iblk2 V c 1 t) (iblk2 V c 2 t) (iblk2 V c 3 t) (iblk2 V c 4 t) s

-- At an even point nothing is stored into the output window: a placeholder nothing consults.
def out2_A_5 : Vec F S1x1024x1024 .f32 := VO2_5.read (Elt F) VO2_5.junk

-- After point `n`: an even point starts afresh from its input blocks, an odd point continues from what the point before left.
def outsAt2 (c : Dev nD) : (n : ℕ) → n < cfg2.N → Vec F S1x1024x1024 .f32 × St2 (F := F)
  | 0, hn => (out2_A_5 (F := F), evenAt V c ⟨0, hn⟩ (Nat.zero_mod _))
  | n + 1, hn =>
    if h0 : (n + 1) % 2 = 0 then (out2_A_5 (F := F), evenAt V c ⟨n + 1, hn⟩ h0)
    else oddAt V c ⟨n + 1, hn⟩ h0 (outsAt2 c n (Nat.lt_of_succ_lt hn)).2

theorem outsAt2_A (c : Dev nD) (t : Fin cfg2.N) (h0 : t.val % 2 = 0) :
    outsAt2 V c t.val t.isLt = (out2_A_5 (F := F), evenAt V c t h0) := by
  obtain ⟨n, hn⟩ := t
  cases n with
  | zero => exact rfl
  | succ n => exact (dif_pos h0).trans rfl

theorem outsAt2_C (c : Dev nD) (t : Fin cfg2.N) (h0 : ¬t.val % 2 = 0) :
    outsAt2 V c t.val t.isLt = oddAt V c t h0 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans rfl

-- Between points the four scratch buffers hold the carried state.
def Carried (c : Dev nD) (s : St2 (F := F)) : sProp 𝕄 :=
  iprop(iprop(Rest2 (F := F) c ∗ owns (c : Thread nD τ) scM2_0 fullShare s.1 ∗ owns (c : Thread nD τ) scM2_1 fullShare s.2.1
      ∗ owns (c : Thread nD τ) scM2_2 fullShare s.2.2.1 ∗ owns (c : Thread nD τ) scM2_3 fullShare s.2.2.2) ∗ (∃ r, prngReg c r))

-- Forgetting the carried state gives back what the launch handed over.
theorem Carried_forget (c : Dev nD) (s : St2 (F := F)) : Carried c s ⊢ Pipeline.ΦA spec2 c := by
  unfold Carried; rw [PhiA2_eq]
  iintro ⟨⟨HR, HS0, HS1, HS2, HS3⟩, Hg⟩
  isplitr [Hg]
  · isplitl [HR]; · iexact HR
    isplitl [HS0]; · iexists _; iexact HS0
    isplitl [HS1]; · iexists _; iexact HS1
    isplitl [HS2]; · iexists _; iexact HS2
    iexists _; iexact HS3
  iexact Hg

def PhiS2 (c : Dev nD) : (n : ℕ) → n ≤ cfg2.N → sProp 𝕄
  | 0, _ => Pipeline.ΦA spec2 c
  | n + 1, hn => Carried c (outsAt2 V c n hn).2

theorem PhiS2_pos (c : Dev nD) (n : ℕ) (h : n ≤ cfg2.N) (hz : n ≠ 0) :
    PhiS2 V c n h = Carried c (outsAt2 V c (n - 1) (by omega)).2 := by
  cases n with
  | zero => exact absurd rfl hz
  | succ n => rfl

theorem PhiS2_forget (c : Dev nD) (n : ℕ) (h : n ≤ cfg2.N) : PhiS2 V c n h ⊢ Pipeline.ΦA spec2 c := by
  cases n with
  | zero => exact Idealize.SL.BI.Entails.refl _
  | succ n => exact Carried_forget c _

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ (∀ d, (dat2 V c).before 3 t d = iblk2 V c 3 t)
      ∧ ∀ d, (dat2 V c).before 4 t d = iblk2 V c 4 t := by
  refine ⟨?_, ?_, ?_, ?_, ?_⟩ <;> intro d <;>
    exact ((dat2 V c).before_in_eq_fetched _ rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
-- An even point forgets the carried state and starts a new one; an odd point advances it and stores the output block.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨b0, b1, b2, b3, b4⟩ := before2 V c t
  simp only [b0, b1, b2, b3, b4]
  rw [show (dat2 V c).owesAt () t.succ = (dat2 V c).owesAt () t.castSucc from rfl]
  rw [show (dat2 V c).Φ t.succ = Carried c (outsAt2 V c t.val t.isLt).2 from rfl, PhiS2_castSucc V c t]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  rw [show (dat2 V c).leavesExact 4 t = owns (c : Thread nD τ) (ms2_4 t) fullShare ((dat2 V c).after 4 t) from by
      unfold Dat.leavesExact; rw [liveAt2_4 t], after2_4]
  by_cases h0 : t.val % 2 = 0
  · rw [Dat.leavesExact_idle (dat2 V c) 5 t (idleAt2_5_A t (c0_of_even t h0) (notC1_of_even t h0)) (noFlush2_5_A t (c0_of_even t h0) (notC1_of_even t h0))]
    rw [outsAt2_A V c t h0]
    refine BIBase.Entails.trans (sep_mono_left (PhiS2_forget V c _ _)) ?_
    rw [PhiA2_eq]
    dsimp only [Carried, evenAt, outA, rd]
    iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) (mem2 t) (c0_of_even t h0) (notC1_of_even t h0) (iblk2 V c 0 t) (iblk2 V c 1 t) (iblk2 V c 2 t) (iblk2 V c 3 t) (iblk2 V c 4 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, ⟨%es0, HS0⟩, ⟨%es1, HS1⟩, ⟨%es2, HS2⟩, ⟨%es3, HS3⟩⟩
    isplitl [HR HS0 HS1 HS2 HS3 Hg]
    · isplitl [HR HS0 HS1 HS2 HS3]
      · isplitl [HR]; · iexact HR
        isplitl [HS0]; · ihave H' := (Ring.owns_of_writes_tiledL VS2_0 S1024x1024.size) $$ HS0; iapply H'; ipureintro; sl_kernel_rfl
        isplitl [HS1]; · ihave H' := (Ring.owns_of_writes_tiledL VS2_1 S1024x1.size) $$ HS1; iapply H'; ipureintro; sl_kernel_rfl
        isplitl [HS2]; · ihave H' := (Ring.owns_of_writes_tiledL VS2_2 S1024x1.size) $$ HS2; iapply H'; ipureintro; sl_kernel_rfl
        ihave H' := (Ring.owns_of_writes_tiledL VS2_3 S1024x1024.size) $$ HS3; iapply H'; ipureintro; sl_kernel_rfl
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [show (dat2 V c).leavesExact 5 t = owns (c : Thread nD τ) (ms2_5 t) fullShare ((dat2 V c).after 5 t) from by
      unfold Dat.leavesExact; rw [liveAt2_5_C t (notC0_of_odd t h0) (c1_of_odd t h0)], after2_5]
    rw [outsAt2_C V c t h0, PhiS2_pos V c _ _ (fun e => h0 (by rw [e]))]
    dsimp only [Carried, oddAt, outC, rd]
    iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
    iapply ((kernelRun2_C c (grid2.coords t) (mem2 t) (notC0_of_odd t h0) (c1_of_odd t h0) (iblk2 V c 0 t) (iblk2 V c 1 t) (iblk2 V c 2 t) (iblk2 V c 3 t) (iblk2 V c 4 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, ⟨%e5, H5⟩, HS0, ⟨%es1, HS1⟩, ⟨%es2, HS2⟩, ⟨%es3, HS3⟩⟩
    isplitl [HR HS0 HS1 HS2 HS3 Hg]
    · isplitl [HR HS0 HS1 HS2 HS3]
      · isplitl [HR]; · iexact HR
        isplitl [HS0]; · iexact HS0
        isplitl [HS1]; · ihave H' := (Ring.owns_of_writes_tiledL VS2_1 S1024x1.size) $$ HS1; iapply H'; ipureintro; sl_kernel_rfl
        isplitl [HS2]; · ihave H' := (Ring.owns_of_writes_tiledL VS2_2 S1024x1.size) $$ HS2; iapply H'; ipureintro; sl_kernel_rfl
        ihave H' := (Ring.owns_of_writes_tiledL VS2_3 S1024x1024.size) $$ HS3; iapply H'; ipureintro; sl_kernel_rfl
      iexact Hg
    isplitl [Ho]; · iexact Ho
    isplitl [H0]; · iexact H0
    isplitl [H1]; · iexact H1
    isplitl [H2]; · iexact H2
    isplitl [H3]; · iexact H3
    isplitl [H4]; · iexact H4
    ihave H' := (Ring.owns_of_writes_tiledL VO2_5 S1x1024x1024.size) $$ H5; iapply H'; ipureintro; sl_kernel_rfl

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Idealize.SL.BI.Entails.refl _

theorem hout2 (c : Dev nD) : (dat2 V c).Φ (Fin.last cfg2.N) ⊢ Pipeline.ΦA spec2 c :=
  PhiS2_forget V c (Fin.last cfg2.N).val (Nat.le_of_lt_succ (Fin.last cfg2.N).isLt)

end Cert.KernelIdeal.Fr

end
-- ==== Proof.KI.Fold.lean ====
import proofs.«401961_j51299089383807_3_alg».proof.Proof.KI.Reg0
import proofs.«401961_j51299089383807_3_alg».proof.Proof.KI.Reg1
import proofs.«401961_j51299089383807_3_alg».proof.Proof.KI.Reg2

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps1_W : List (Ref sig .tc) := [main_v6, main_v7]
theorem hostOps1_writes : (hostOps1 : List (HloOp τ sig (Elt F))).Forall fun op => op.writes ⊆ (hostOps1_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps2_W : List (Ref sig .tc) := [main_v9, main_v10, main_v11]
theorem hostOps2_writes : (hostOps2 : List (HloOp τ sig (Elt F))).Forall fun op => op.writes ⊆ (hostOps2_W.map (Proc.devRef (τ := τ) .tc)).toFinset := by
  simp only [List.Forall]
  refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

-- The buffer contents between @main's six segments, folded from the launch memory.
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

-- A buffer no host stretch writes and no projection launch holds as an array keeps its launch contents up to the third launch.
theorem W5_arg (c : Dev nD) (r : Ref sig .tc)
    (h : r ∉ hostOps0_W ∧ r ∉ hostOps1_W ∧ r ∉ hostOps2_W ∧ (∀ w, Pipeline.arrRef spec0 w ≠ r) ∧ ∀ w, Pipeline.arrRef spec1 w ≠ r) :
    W5 m ρ c (Proc.devRef .tc r) = m ((c : Thread nD τ).loc r) :=
  (W5_of m ρ c r h.2.2.1).trans <| (W4_of_ne m ρ c r h.2.2.2.2).trans <| (W3_of m ρ c r h.2.1).trans <|
    (W2_of_ne m ρ c r h.2.2.2.1).trans <| (W1_of m ρ c r h.1).trans rfl

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

theorem W6_main_arg0 (c : Dev nD) : W6 m ρ c (Proc.devRef .tc main_arg0) = m ((c : Thread nD τ).loc main_arg0) :=
  ((W6_arr m ρ c 0).trans (((dat2 (V5 m ρ) c).arrAt_in 0 rfl _).trans (A_eq2 (V5 m ρ) c 0))).trans (W5_arg m ρ c main_arg0 (by decide))
theorem W6_arg (c : Dev nD) (r : Ref sig .tc)
    (h : r ∉ hostOps0_W ∧ r ∉ hostOps1_W ∧ r ∉ hostOps2_W ∧ (∀ w, Pipeline.arrRef spec0 w ≠ r) ∧ ∀ w, Pipeline.arrRef spec1 w ≠ r)
    (h2 : ∀ w, Pipeline.arrRef spec2 w ≠ r) : W6 m ρ c (Proc.devRef .tc r) = m ((c : Thread nD τ).loc r) :=
  (W6_of_ne m ρ c r h2).trans (W5_arg m ρ c r h)

theorem W6_main_v12 (c : Dev nD) : W6 m ρ c (Proc.devRef .tc main_v12) = (dat2 (V5 m ρ) c).arrAt 5 cfg2.N :=
  W6_arr m ρ c 5

end Cert.KernelIdeal.Fr

end
-- ==== Proof.KI.Run.lean ====
import proofs.«401961_j51299089383807_3_alg».proof.Proof.KI.Fold

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m ρ c) ∗ ∃ r, prngReg c r)

-- A launch as a segment of @main: buffers in at one boundary's contents, out with the launch's arrays at their final contents.
abbrev PC (p : Fin 3) := Pipeline.pin (pcfgs (F := F)) adm p

abbrev Wout (p : Fin 3) (Wi : Dev nD → Valuation τ sig (Elt F)) (c : Dev nD) : Valuation τ sig (Elt F) :=
  Pipeline.withArrays (PC (F := F) p).spec c (Wi c) fun w => (pdats m ρ p c).arrAt w (PC (F := F) p).N

set_option backward.isDefEq.respectTransparency.types false in
def mkReg (p : Fin 3) (launch : Pipeline.LaunchFacts (nD := nD) (τ := τ) cfgs p) (Wi : Dev nD → Valuation τ sig (Elt F))
    (hbody : ∀ c, BodyObligation (pdats m ρ p c) (defs₀ (F := F)) 𝒱₀ () Set.univ)
    (hq : ∀ c w, (pdats m ρ p c).q w = fullShare) (howed : ∀ c t, (pdats m ρ p c).owed t = 0)
    (hrec : ∀ c x, x ∈ (pdats m ρ p c).recorded 0)
    (hA : ∀ c w, (pdats m ρ p c).A w = Wi c (Pipeline.arrRef (PC (F := F) p).spec w))
    (hΦi : ∀ c, Pipeline.ΦA (PC (F := F) p).spec c ⊢ (pdats m ρ p c).Φ 0)
    (hΦo : ∀ c, (pdats m ρ p c).Φ (Fin.last _) ⊢ Pipeline.ΦA (PC (F := F) p).spec c) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wout m ρ p Wi c) ∗ R c)
  X c := iprop(∃ r, prngReg c r)
  Y c := iprop(∃ r, prngReg c r)
  Z c := Pipeline.unscopedRest (Ix := Unit) (Name := ℕ) (U := UR sig nD τ) (Lvl := ℕ) (PC (F := F) p).spec c (fun b => Wi c b)
  hentry c := by
    rw [Pipeline.ownSems0_none]
    have hsplit := Pipeline.arrays_of_unscopedBufs (p := p) (pcfgs (F := F)) adm (pdats m ρ) launch.win launch.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (hrec c _)
      rw [howed c]; iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    rw [Pipeline.ownSems0_none]
    refine BIBase.Entails.trans (hΦo c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (fun b => Wi c b) (fun b => Wout m ρ p Wi c b)
      ((pdats m ρ p c).arrAt · (PC (F := F) p).N)
      (fun w => (Pipeline.withArrays_arr (PC (F := F) p).spec launch.win.arr_inj c (Wi c) (fun w => (pdats m ρ p c).arrAt w (PC (F := F) p).N) w).symm)
      (fun b hb => Pipeline.withArrays_of_ne (PC (F := F) p).spec c (Wi c) (fun w => (pdats m ρ p c).arrAt w (PC (F := F) p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := mkReg m ρ 0 launch0 (W1 m ρ) (fun c => body_obligation0 (V1 m ρ) c) (fun _ _ => rfl) (fun _ _ => rfl) (fun _ _ => trivial) (fun _ _ => rfl)
  (fun _ => Idealize.SL.BI.Entails.refl _) (fun _ => Idealize.SL.BI.Entails.refl _)
def reg1 := mkReg m ρ 1 launch1 (W3 m ρ) (fun c => body_obligation1 (V3 m ρ) c) (fun _ _ => rfl) (fun _ _ => rfl) (fun _ _ => trivial) (fun _ _ => rfl)
  (fun _ => Idealize.SL.BI.Entails.refl _) (fun _ => Idealize.SL.BI.Entails.refl _)
def reg2 := mkReg m ρ 2 launch2 (W5 m ρ) (fun c => body_obligation2 (V5 m ρ) c) (fun _ _ => rfl) (fun _ _ => rfl) (fun _ _ => trivial) (fun _ _ => rfl)
  (hin2 (V5 m ρ)) (hout2 (V5 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

theorem main_run (c : Dev nD) : main (F := F) c = Pipeline.Seg.run (segs m ρ) := (main_chain c).trans (by chain_rfl)

-- @main is three host stretches and three launches; each segment takes the contents at one boundary to the next.
set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

-- Every buffer @main's launches do not write ends at its launch contents; the result buffer ends at the third launch's array.
theorem run_value : θ_run defs (onTc (τ := τ) (main (F := F))) ⟨m, fun _ => 0, ρ⟩ (fun r => ∀ c : Dev nD,
      r.2.mem ((c.tc : Thread nD τ).loc main_v12) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v12 (by decide))).trans (W6_main_v12 m ρ c),
    (h c _ (mem_uc main_arg0 (by decide))).trans (W6_main_arg0 m ρ c),
    (h c _ (mem_uc main_arg1 (by decide))).trans (W6_arg m ρ c main_arg1 (by decide) (by decide)),
    (h c _ (mem_uc main_arg2 (by decide))).trans (W6_arg m ρ c main_arg2 (by decide) (by decide)),
    (h c _ (mem_uc main_arg3 (by decide))).trans (W6_arg m ρ c main_arg3 (by decide) (by decide)),
    (h c _ (mem_uc main_arg4 (by decide))).trans (W6_arg m ρ c main_arg4 (by decide) (by decide)),
    (h c _ (mem_uc main_arg5 (by decide))).trans (W6_arg m ρ c main_arg5 (by decide) (by decide)),
    (h c _ (mem_uc main_arg6 (by decide))).trans (W6_arg m ρ c main_arg6 (by decide) (by decide)),
    (h c _ (mem_uc main_arg7 (by decide))).trans (W6_arg m ρ c main_arg7 (by decide) (by decide)),
    (h c _ (mem_uc main_arg8 (by decide))).trans (W6_arg m ρ c main_arg8 (by decide) (by decide))⟩) (run_all m ρ)

end Cert.KernelIdeal.Fr

end
-- ==== Proof.Spec.lean ====
import Mathlib.Analysis.SpecialFunctions.Exp
import Mathlib.Algebra.BigOperators.Field
import Mathlib.Order.Interval.Finset.Fin

noncomputable section

open scoped BigOperators

namespace Cert.Spec

def proj (x : Fin 4 → Fin 2048 → Fin 1024 → ℝ) (W : Fin 1024 → Fin 1024 → ℝ) (bias : Fin 1024 → ℝ)
    (b : Fin 4) (s : Fin 2048) (j : Fin 1024) : ℝ :=
  (∑ e : Fin 1024, x b s e * W e j) + bias j

def projFlat (x : Fin 8192 → Fin 1024 → ℝ) (W : Fin 1024 → Fin 1024 → ℝ) (bias : Fin 1024 → ℝ)
    (r : Fin 8192) (j : Fin 1024) : ℝ :=
  (∑ e : Fin 1024, x r e * W e j) + bias j

def score (Q K : Fin 4 → Fin 2048 → Fin 1024 → ℝ) (b : Fin 4) (q s : Fin 2048) : ℝ :=
  (∑ d : Fin 1024, Q b q d * K b s d) / 32

def rowMax (S : Fin 2048 → ℝ) : ℝ := Finset.univ.sup' Finset.univ_nonempty S

def softmax (S : Fin 2048 → ℝ) (s : Fin 2048) : ℝ :=
  Real.exp (S s - rowMax S) / ∑ s' : Fin 2048, Real.exp (S s' - rowMax S)

def attn (Q K V : Fin 4 → Fin 2048 → Fin 1024 → ℝ) (b : Fin 4) (q : Fin 2048) (j : Fin 1024) : ℝ :=
  ∑ s : Fin 2048, softmax (score Q K b q) s * V b s j

-- Both programs' result over the reals: project thrice, then softmax attention per batch with scores over 32 = √1024.
def G (x0 x1 x2 : Fin 4 → Fin 2048 → Fin 1024 → ℝ) (W3 : Fin 1024 → Fin 1024 → ℝ) (b4 : Fin 1024 → ℝ)
    (W5 : Fin 1024 → Fin 1024 → ℝ) (b6 : Fin 1024 → ℝ) (W7 : Fin 1024 → Fin 1024 → ℝ) (b8 : Fin 1024 → ℝ) :
    Fin 4 → Fin 2048 → Fin 1024 → ℝ :=
  attn (proj x0 W3 b4) (proj x1 W5 b6) (proj x2 W7 b8)

def tileScore (qr kr : Fin 1024 → Fin 1024 → ℝ) (r s : Fin 1024) : ℝ := ∑ d : Fin 1024, qr r d * kr s d

def tileMax (sc : Fin 1024 → ℝ) : ℝ := Finset.univ.sup' Finset.univ_nonempty sc

def m1 (sc : Fin 1024 → ℝ) : ℝ := tileMax sc

def l1 (sc : Fin 1024 → ℝ) : ℝ := ∑ s : Fin 1024, Real.exp (sc s - tileMax sc)

def acc1 (sc : Fin 1024 → ℝ) (vt : Fin 1024 → Fin 1024 → ℝ) (j : Fin 1024) : ℝ :=
  ∑ s : Fin 1024, Real.exp (sc s - tileMax sc) * vt s j

def m2 (m : ℝ) (sc : Fin 1024 → ℝ) : ℝ := max m (tileMax sc)

def l2 (m l : ℝ) (sc : Fin 1024 → ℝ) : ℝ :=
  Real.exp (m - m2 m sc) * l + ∑ s : Fin 1024, Real.exp (sc s - m2 m sc)

def acc2 (m : ℝ) (acc : Fin 1024 → ℝ) (sc : Fin 1024 → ℝ) (vt : Fin 1024 → Fin 1024 → ℝ) (j : Fin 1024) : ℝ :=
  Real.exp (m - m2 m sc) * acc j + ∑ s : Fin 1024, Real.exp (sc s - m2 m sc) * vt s j

def lo (s : Fin 1024) : Fin 2048 := ⟨s.val, by omega⟩

def hi (s : Fin 1024) : Fin 2048 := ⟨1024 + s.val, by omega⟩

end Cert.Spec

end
-- ==== Proof.RefG.lean ====
import proofs.«401961_j51299089383807_3_alg».proof.Proof.Spec
import proofs.«401961_j51299089383807_3_alg».proof.Proof.Gen.ReferenceIdeal.Run
import proofs.«401961_j51299089383807_3_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce
import Mathlib.Data.EReal.Inv
import Mathlib.Analysis.SpecialFunctions.Sqrt

noncomputable section

open scoped BigOperators

namespace Cert.RefG

open Idealize.ShloMosaic Idealize.ShloMosaic.ValueIdx Cert.ReferenceIdeal

theorem coe_sum {ι : Type*} (s : Finset ι) (f : ι → ℝ) :
    ∑ k ∈ s, ((f k : ℝ) : EReal) = ((∑ k ∈ s, f k : ℝ) : EReal) := by
  classical
  refine Finset.induction_on s ?_ ?_
  · simp
  · intro a s ha ih
    rw [Finset.sum_insert ha, Finset.sum_insert ha, ih, EReal.coe_add]

theorem coe_sum_mul {ι : Type*} (s : Finset ι) (f g : ι → ℝ) :
    ∑ k ∈ s, ((f k : ℝ) : EReal) * ((g k : ℝ) : EReal) = ((∑ k ∈ s, f k * g k : ℝ) : EReal) := by
  rw [← coe_sum]
  exact Finset.sum_congr rfl fun k _ => (EReal.coe_mul _ _).symm

theorem div_coe_coe (a y : ℝ) (hy : y ≠ 0) : Ideal.div (a : EReal) (y : EReal) = ((a / y : ℝ) : EReal) := by
  rw [Ideal.div_coe hy, ← EReal.coe_mul, mul_one_div]

theorem ofBits_1024 : Ideal.ofBits .f32 0x44800000#32 = ((1024 : ℝ) : EReal) := by
  simp [Ideal.ofBits, Ideal.ieee, -EReal.coe_mul]; norm_num

theorem ofBits_neg_inf : Ideal.ofBits .f32 0xFF800000#32 = ⊥ := by simp [Ideal.ofBits, Ideal.ieee]

theorem sqrt_1024 : Ideal.sqrt ((1024 : ℝ) : EReal) = ((32 : ℝ) : EReal) := by
  rw [Ideal.sqrt_coe, if_neg (by norm_num)]
  rw [show (1024 : ℝ) = 32 * 32 by norm_num, Real.sqrt_mul_self (by norm_num)]

theorem fold_maximumf_coe {n : ℕ} (hn : (Finset.univ : Finset (Fin n)).Nonempty) (g : Fin n → EReal) (f : Fin n → ℝ)
    (hg : ∀ k, g k = ((f k : ℝ) : EReal)) :
    (Finset.univ : Finset (Fin n)).fold (FloatOps.maximumf (F := Ideal) (φ := .f32)) ⊥ g
      = ((Finset.univ.sup' hn f : ℝ) : EReal) := by
  show (Finset.univ : Finset (Fin n)).fold max ⊥ g = _
  refine le_antisymm ?_ ?_
  · refine (Finset.fold_max_le _).2 ⟨bot_le, fun k _ => ?_⟩
    rw [hg k]
    exact EReal.coe_le_coe_iff.2 (Finset.le_sup' f (Finset.mem_univ k))
  · obtain ⟨k, _, hk⟩ := Finset.exists_mem_eq_sup' hn f
    refine (Finset.le_fold_max _).2 (Or.inr ⟨k, Finset.mem_univ k, ?_⟩)
    rw [hk, hg k]

theorem projQ_apply (x : Fin 4 → Fin 2048 → Fin 1024 → ℝ) (W : Fin 1024 → Fin 1024 → ℝ) (bias : Fin 1024 → ℝ)
    (X : (⟨S4x2048x1024, .f32⟩ : BufTy).Contents (Elt Ideal)) (XW : (⟨S1024x1024, .f32⟩ : BufTy).Contents (Elt Ideal)) (XB : (⟨S1024, .f32⟩ : BufTy).Contents (Elt Ideal))
    (hx : ∀ b s e, X (ix3 b s e) = ((x b s e : ℝ) : EReal)) (hw : ∀ e j, XW (ix2 e j) = ((W e j : ℝ) : EReal))
    (hb : ∀ j, XB (ix1 j) = ((bias j : ℝ) : EReal)) (b : Fin 4) (s : Fin 2048) (j : Fin 1024) :
    Read.val_main_v3 (F := Ideal) X XW XB (ix3 b s j) = ((Cert.Spec.proj x W bias b s j : ℝ) : EReal) := by
  have e1 : ∀ k, Read.lidx_main_v0 (ix3 b s j) k = ix3 b s k := fun k => funext fun a => Fin.ext (by match a with | ⟨0, _⟩ => rfl | ⟨1, _⟩ => rfl | ⟨2, _⟩ => rfl)
  have e2 : ∀ k, Read.ridx_main_v0 (ix3 b s j) k = ix2 k j := fun k => funext fun a => Fin.ext (by match a with | ⟨0, _⟩ => rfl | ⟨1, _⟩ => rfl)
  have e3 : Read.idx_main_v1 (Read.idx_main_v2 (ix3 b s j)) = ix1 j := funext fun a => Fin.ext (by match a with | ⟨0, _⟩ => rfl)
  have hs : (∑ k : Fin 1024, X (Read.lidx_main_v0 (ix3 b s j) k) * XW (Read.ridx_main_v0 (ix3 b s j) k))
      = ((∑ e : Fin 1024, x b s e * W e j : ℝ) : EReal) := by
    rw [← coe_sum_mul]
    exact Finset.sum_congr rfl fun k _ => by rw [e1 k, e2 k, hx, hw]
  rw [Read.val_main_v3_apply, Read.val_main_v0_apply, Read.val_main_v2_apply, Read.val_main_v1_apply, e3, hb, hs,
    Ideal.addf_def, ← EReal.coe_add]
  rfl

-- The three projections are one stage applied to different operands.
theorem projK_apply (x : Fin 4 → Fin 2048 → Fin 1024 → ℝ) (W : Fin 1024 → Fin 1024 → ℝ) (bias : Fin 1024 → ℝ)
    (X : (⟨S4x2048x1024, .f32⟩ : BufTy).Contents (Elt Ideal)) (XW : (⟨S1024x1024, .f32⟩ : BufTy).Contents (Elt Ideal)) (XB : (⟨S1024, .f32⟩ : BufTy).Contents (Elt Ideal))
    (hx : ∀ b s e, X (ix3 b s e) = ((x b s e : ℝ) : EReal)) (hw : ∀ e j, XW (ix2 e j) = ((W e j : ℝ) : EReal))
    (hb : ∀ j, XB (ix1 j) = ((bias j : ℝ) : EReal)) (b : Fin 4) (s : Fin 2048) (j : Fin 1024) :
    Read.val_main_v7 (F := Ideal) X XW XB (ix3 b s j) = ((Cert.Spec.proj x W bias b s j : ℝ) : EReal) :=
  projQ_apply x W bias X XW XB hx hw hb b s j

theorem projV_apply (x : Fin 4 → Fin 2048 → Fin 1024 → ℝ) (W : Fin 1024 → Fin 1024 → ℝ) (bias : Fin 1024 → ℝ)
    (X : (⟨S4x2048x1024, .f32⟩ : BufTy).Contents (Elt Ideal)) (XW : (⟨S1024x1024, .f32⟩ : BufTy).Contents (Elt Ideal)) (XB : (⟨S1024, .f32⟩ : BufTy).Contents (Elt Ideal))
    (hx : ∀ b s e, X (ix3 b s e) = ((x b s e : ℝ) : EReal)) (hw : ∀ e j, XW (ix2 e j) = ((W e j : ℝ) : EReal))
    (hb : ∀ j, XB (ix1 j) = ((bias j : ℝ) : EReal)) (b : Fin 4) (s : Fin 2048) (j : Fin 1024) :
    Read.val_main_v11 (F := Ideal) X XW XB (ix3 b s j) = ((Cert.Spec.proj x W bias b s j : ℝ) : EReal) :=
  projQ_apply x W bias X XW XB hx hw hb b s j

variable {X0 X1 : (⟨S4x2048x1024, .f32⟩ : BufTy).Contents (Elt Ideal)} {X3 : (⟨S1024x1024, .f32⟩ : BufTy).Contents (Elt Ideal)} {X4 : (⟨S1024, .f32⟩ : BufTy).Contents (Elt Ideal)} {X5 : (⟨S1024x1024, .f32⟩ : BufTy).Contents (Elt Ideal)} {X6 : (⟨S1024, .f32⟩ : BufTy).Contents (Elt Ideal)}

theorem score_apply (Q K : Fin 4 → Fin 2048 → Fin 1024 → ℝ)
    (hq : ∀ b s j, Read.val_main_v3 (F := Ideal) X0 X3 X4 (ix3 b s j) = ((Q b s j : ℝ) : EReal))
    (hk : ∀ b s j, Read.val_main_v7 (F := Ideal) X1 X5 X6 (ix3 b s j) = ((K b s j : ℝ) : EReal))
    (b : Fin 4) (q s : Fin 2048) :
    Read.val_main_v15 (F := Ideal) X0 X1 X3 X4 X5 X6 (ix3 b q s) = ((Cert.Spec.score Q K b q s : ℝ) : EReal) := by
  have e1 : ∀ k, Read.lidx_main_v12 (ix3 b q s) k = ix3 b q k := fun k => funext fun a => Fin.ext (by match a with | ⟨0, _⟩ => rfl | ⟨1, _⟩ => rfl | ⟨2, _⟩ => rfl)
  have e2 : ∀ k, Read.ridx_main_v12 (ix3 b q s) k = ix3 b s k := fun k => funext fun a => Fin.ext (by match a with | ⟨0, _⟩ => rfl | ⟨1, _⟩ => rfl | ⟨2, _⟩ => rfl)
  have hs : (∑ k : Fin 1024, Read.val_main_v3 (F := Ideal) X0 X3 X4 (Read.lidx_main_v12 (ix3 b q s) k)
        * Read.val_main_v7 (F := Ideal) X1 X5 X6 (Read.ridx_main_v12 (ix3 b q s) k))
      = ((∑ d : Fin 1024, Q b q d * K b s d : ℝ) : EReal) := by
    rw [← coe_sum_mul]
    exact Finset.sum_congr rfl fun k _ => by rw [e1 k, e2 k, hq, hk]
  rw [Read.val_main_v15_apply, Read.val_main_v12_apply, Read.val_main_v14_apply, Read.val_main_v13_apply,
    Read.val_main_cst_apply, hs, Ideal.hostDivf_def, Ideal.hostUnary_sqrt_def, Ideal.ofBits_def, ofBits_1024, sqrt_1024,
    div_coe_coe _ _ (by norm_num)]
  rfl

theorem rowMax_apply (S : Fin 4 → Fin 2048 → Fin 2048 → ℝ)
    (hs : ∀ b q s, Read.val_main_v15 (F := Ideal) X0 X1 X3 X4 X5 X6 (ix3 b q s) = ((S b q s : ℝ) : EReal))
    (b : Fin 4) (q : Fin 2048) :
    Read.val_main_v18 (F := Ideal) X0 X1 X3 X4 X5 X6 (ix2 b q) = ((Cert.Spec.rowMax (S b q) : ℝ) : EReal) := by
  rw [Read.val_main_v18_apply, Read.val_main_v17_apply, Read.val_main_cst_1_apply, Ideal.ofBits_def, ofBits_neg_inf,
    Ideal.maximumf_def, max_bot_left]
  unfold Read.val_main_v16
  generalize Read.val_main_v15 (F := Ideal) X0 X1 X3 X4 X5 X6 = Y at hs ⊢
  have hred : S4x2048x2048.Reduces [2] S4x2048 := by decide
  rw [Host.reduce_eq_fold_single (FloatOps.maximumf (F := Ideal) (φ := .f32)) Y _ Gen.reducesTo_S4x2048x2048_S4x2048_d2 hred Gen.h_S_ (ix2 b q),
    Read.val_main_cst_0_apply, Ideal.ofBits_def, ofBits_neg_inf]
  have el : ∀ k : Fin 2048, hred.lift (ix2 b q) k = ix3 b q k := fun k => funext fun a => Fin.ext (by match a with | ⟨0, _⟩ => rfl | ⟨1, _⟩ => rfl | ⟨2, _⟩ => rfl)
  exact fold_maximumf_coe (n := 2048) Finset.univ_nonempty (Y ∘ hred.lift (ix2 b q)) (S b q) (fun k => by
    show Y (hred.lift (ix2 b q) k) = _
    rw [el k, hs])

theorem v20_apply' (b : Fin 4) (q s : Fin 2048) :
    Read.val_main_v20 (F := Ideal) X0 X1 X3 X4 X5 X6 (ix3 b q s) = Read.val_main_v18 (F := Ideal) X0 X1 X3 X4 X5 X6 (ix2 b q) := by
  rw [Read.val_main_v20_apply, Read.val_main_v19_apply]
  exact congrArg _ (funext fun a => Fin.ext (by match a with | ⟨0, _⟩ => rfl | ⟨1, _⟩ => rfl))

theorem exp_apply (S : Fin 4 → Fin 2048 → Fin 2048 → ℝ) (M : Fin 4 → Fin 2048 → ℝ)
    (hs : ∀ b q s, Read.val_main_v15 (F := Ideal) X0 X1 X3 X4 X5 X6 (ix3 b q s) = ((S b q s : ℝ) : EReal))
    (hm : ∀ b q, Read.val_main_v18 (F := Ideal) X0 X1 X3 X4 X5 X6 (ix2 b q) = ((M b q : ℝ) : EReal))
    (b : Fin 4) (q s : Fin 2048) :
    Read.val_main_v22 (F := Ideal) X0 X1 X3 X4 X5 X6 (ix3 b q s) = ((Real.exp (S b q s - M b q) : ℝ) : EReal) := by
  rw [Read.val_main_v22_apply, Read.val_main_v21_apply, v20_apply', hs, hm, Ideal.subf_def, Ideal.hostUnary_exp_def,
    ← EReal.coe_sub, Ideal.exp_coe]

theorem rowSum_apply (E : Fin 4 → Fin 2048 → Fin 2048 → ℝ)
    (he : ∀ b q s, Read.val_main_v22 (F := Ideal) X0 X1 X3 X4 X5 X6 (ix3 b q s) = ((E b q s : ℝ) : EReal))
    (b : Fin 4) (q : Fin 2048) :
    Read.val_main_v23 (F := Ideal) X0 X1 X3 X4 X5 X6 (ix2 b q) = ((∑ s : Fin 2048, E b q s : ℝ) : EReal) := by
  have e1 : ∀ k, Read.idx_main_v23 (ix2 b q) k = ix3 b q k := fun k => funext fun a => Fin.ext (by match a with | ⟨0, _⟩ => rfl | ⟨1, _⟩ => rfl | ⟨2, _⟩ => rfl)
  rw [Read.val_main_v23_apply, Read.val_main_cst_2_apply, Ideal.ofBits_def, Ideal.ofBits_zero_f32, zero_add, ← coe_sum]
  exact Finset.sum_congr rfl fun k _ => by rw [e1 k, he]

theorem v25_apply' (b : Fin 4) (q s : Fin 2048) :
    Read.val_main_v25 (F := Ideal) X0 X1 X3 X4 X5 X6 (ix3 b q s) = Read.val_main_v23 (F := Ideal) X0 X1 X3 X4 X5 X6 (ix2 b q) := by
  rw [Read.val_main_v25_apply, Read.val_main_v24_apply]
  exact congrArg _ (funext fun a => Fin.ext (by match a with | ⟨0, _⟩ => rfl | ⟨1, _⟩ => rfl))

theorem weight_apply (E : Fin 4 → Fin 2048 → Fin 2048 → ℝ) (L : Fin 4 → Fin 2048 → ℝ)
    (he : ∀ b q s, Read.val_main_v22 (F := Ideal) X0 X1 X3 X4 X5 X6 (ix3 b q s) = ((E b q s : ℝ) : EReal))
    (hl : ∀ b q, Read.val_main_v23 (F := Ideal) X0 X1 X3 X4 X5 X6 (ix2 b q) = ((L b q : ℝ) : EReal))
    (hL : ∀ b q, L b q ≠ 0) (b : Fin 4) (q s : Fin 2048) :
    Read.val_main_v26 (F := Ideal) X0 X1 X3 X4 X5 X6 (ix3 b q s) = ((E b q s / L b q : ℝ) : EReal) := by
  rw [Read.val_main_v26_apply, v25_apply', he, hl, Ideal.hostDivf_def, div_coe_coe _ _ (hL b q)]

theorem out_apply (P : Fin 4 → Fin 2048 → Fin 2048 → ℝ) (V : Fin 4 → Fin 2048 → Fin 1024 → ℝ)
    (X0 X1 X2 : (⟨S4x2048x1024, .f32⟩ : BufTy).Contents (Elt Ideal)) (X3 : (⟨S1024x1024, .f32⟩ : BufTy).Contents (Elt Ideal)) (X4 : (⟨S1024, .f32⟩ : BufTy).Contents (Elt Ideal)) (X5 : (⟨S1024x1024, .f32⟩ : BufTy).Contents (Elt Ideal)) (X6 : (⟨S1024, .f32⟩ : BufTy).Contents (Elt Ideal)) (X7 : (⟨S1024x1024, .f32⟩ : BufTy).Contents (Elt Ideal)) (X8 : (⟨S1024, .f32⟩ : BufTy).Contents (Elt Ideal))
    (hp : ∀ b q s, Read.val_main_v26 (F := Ideal) X0 X1 X3 X4 X5 X6 (ix3 b q s) = ((P b q s : ℝ) : EReal))
    (hv : ∀ b s j, Read.val_main_v11 (F := Ideal) X2 X7 X8 (ix3 b s j) = ((V b s j : ℝ) : EReal))
    (b : Fin 4) (q : Fin 2048) (j : Fin 1024) :
    Read.val_main_v27 (F := Ideal) X0 X1 X2 X3 X4 X5 X6 X7 X8 (ix3 b q j)
      = ((∑ s : Fin 2048, P b q s * V b s j : ℝ) : EReal) := by
  have e1 : ∀ k, Read.lidx_main_v27 (ix3 b q j) k = ix3 b q k := fun k => funext fun a => Fin.ext (by match a with | ⟨0, _⟩ => rfl | ⟨1, _⟩ => rfl | ⟨2, _⟩ => rfl)
  have e2 : ∀ k, Read.ridx_main_v27 (ix3 b q j) k = ix3 b k j := fun k => funext fun a => Fin.ext (by match a with | ⟨0, _⟩ => rfl | ⟨1, _⟩ => rfl | ⟨2, _⟩ => rfl)
  rw [Read.val_main_v27_apply, ← coe_sum_mul]
  exact Finset.sum_congr rfl fun k _ => by rw [e1 k, e2 k, hp, hv]

open Idealize.ShloMosaic Idealize.ShloMosaic.ValueIdx Cert.ReferenceIdeal in
-- The reference's stages, read one at a time at an index, compose to the specification.
theorem ref_eq_G
    (x0 x1 x2 : Fin 4 → Fin 2048 → Fin 1024 → ℝ) (W3 : Fin 1024 → Fin 1024 → ℝ) (b4 : Fin 1024 → ℝ)
    (W5 : Fin 1024 → Fin 1024 → ℝ) (b6 : Fin 1024 → ℝ) (W7 : Fin 1024 → Fin 1024 → ℝ) (b8 : Fin 1024 → ℝ)
    (X0 X1 X2 : (⟨S4x2048x1024, .f32⟩ : BufTy).Contents (Elt Ideal)) (X3 : (⟨S1024x1024, .f32⟩ : BufTy).Contents (Elt Ideal))
    (X4 : (⟨S1024, .f32⟩ : BufTy).Contents (Elt Ideal)) (X5 : (⟨S1024x1024, .f32⟩ : BufTy).Contents (Elt Ideal))
    (X6 : (⟨S1024, .f32⟩ : BufTy).Contents (Elt Ideal)) (X7 : (⟨S1024x1024, .f32⟩ : BufTy).Contents (Elt Ideal))
    (X8 : (⟨S1024, .f32⟩ : BufTy).Contents (Elt Ideal))
    (h0 : ∀ b s e, X0 (ix3 b s e) = ((x0 b s e : ℝ) : EReal)) (h1 : ∀ b s e, X1 (ix3 b s e) = ((x1 b s e : ℝ) : EReal))
    (h2 : ∀ b s e, X2 (ix3 b s e) = ((x2 b s e : ℝ) : EReal))
    (h3 : ∀ e j, X3 (ix2 e j) = ((W3 e j : ℝ) : EReal)) (h4 : ∀ j, X4 (ix1 j) = ((b4 j : ℝ) : EReal))
    (h5 : ∀ e j, X5 (ix2 e j) = ((W5 e j : ℝ) : EReal)) (h6 : ∀ j, X6 (ix1 j) = ((b6 j : ℝ) : EReal))
    (h7 : ∀ e j, X7 (ix2 e j) = ((W7 e j : ℝ) : EReal)) (h8 : ∀ j, X8 (ix1 j) = ((b8 j : ℝ) : EReal)) :
    ∀ (b : Fin 4) (q : Fin 2048) (j : Fin 1024),
      Read.val_main_v27 (F := Ideal) X0 X1 X2 X3 X4 X5 X6 X7 X8 (ix3 b q j)
        = ((Cert.Spec.G x0 x1 x2 W3 b4 W5 b6 W7 b8 b q j : ℝ) : EReal) := by
  intro b q j
  have hq := projQ_apply x0 W3 b4 X0 X3 X4 h0 h3 h4
  have hk := projK_apply x1 W5 b6 X1 X5 X6 h1 h5 h6
  have hv := projV_apply x2 W7 b8 X2 X7 X8 h2 h7 h8
  have hs := score_apply (Cert.Spec.proj x0 W3 b4) (Cert.Spec.proj x1 W5 b6) hq hk
  have hm := rowMax_apply (Cert.Spec.score (Cert.Spec.proj x0 W3 b4) (Cert.Spec.proj x1 W5 b6)) hs
  have he := exp_apply _ (fun b q => Cert.Spec.rowMax (Cert.Spec.score (Cert.Spec.proj x0 W3 b4) (Cert.Spec.proj x1 W5 b6) b q)) hs hm
  have hl := rowSum_apply _ he
  have hp := weight_apply _ _ he hl
    (fun b q => (Finset.sum_pos (fun s _ => Real.exp_pos _) Finset.univ_nonempty).ne')
  rw [out_apply _ _ X0 X1 X2 X3 X4 X5 X6 X7 X8 hp hv b q j]
  rfl

end Cert.RefG

end
-- ==== Proof.Finite.lean ====
import proofs.«401961_j51299089383807_3_alg».proof.Defs
import proofs.«401961_j51299089383807_3_alg».proof.Proof.Gen.Pre_finite_inputs
import proofs.«401961_j51299089383807_3_alg».proof.Proof.Gen.KernelIdeal
import Idealize.ShloMosaic.Lib.ReduceAll
import Idealize.ShloMosaic.Lib.ValueIdx
import Mathlib.Data.EReal.Basic

noncomputable section

namespace Cert.Finite

open Idealize.ShloMosaic Idealize.ShloMosaic.ValueIdx Idealize.SL.Sem

instance subsingleton_idx0 : Subsingleton (⟨0, ![]⟩ : Shape).Idx := ⟨fun a b => funext fun d => d.elim0⟩

theorem ofBits_inf : Ideal.ofBits .f32 0x7F800000#32 = (⊤ : EReal) := by
  simp [Ideal.ofBits, Ideal.ieee]

theorem coe_toReal_of_abs_lt (x : EReal)
    (h : Ideal.cmp .olt (max x (-x)) (Ideal.ofBits .f32 0x7F800000#32) = 1#1) : x = ((x.toReal : ℝ) : EReal) := by
  rw [ofBits_inf] at h
  have hlt : max x (-x) < ⊤ := by
    by_contra hn
    simp [Ideal.cmp, hn] at h
  have hx : x ≠ ⊤ := by
    rintro rfl
    simp at hlt
  have hx' : x ≠ ⊥ := by
    rintro rfl
    simp at hlt
  exact (EReal.coe_toReal hx hx').symm

theorem coe_toReal_of_all {s u : Shape} {axes : List (Fin s.rank)} (x inf : FVec Ideal s .f32)
    (hinf : ∀ i, inf i = Ideal.ofBits .f32 0x7F800000#32) (init : IVec u 1)
    (h : s.ReducesTo axes ⟨0, ![]⟩) (hu : 0 < u.numel)
    (e : Host.reduce IntOp.andi (cmpf .olt (Host.absf x) inf) init h hu ix0 = 1#1) (i : s.Idx) :
    x i = (((x i : EReal).toReal : ℝ) : EReal) := by
  have hi := Host.reduce_andi_all _ init h hu ix0 e i
  rw [cmpf_apply, hinf] at hi
  exact coe_toReal_of_abs_lt (x i) hi

theorem andi_apply_eq_one {s : Shape} (x y : IVec s 1) (i : s.Idx) (h : andi x y i = 1#1) :
    x i = 1#1 ∧ y i = 1#1 := IntOp.andi_eq_one.1 h

open Cert.KernelIdeal in
-- Under the precondition every input entry is a real number: |x| < ∞ rules out both infinities.
theorem reals_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    ∃ (x0 x1 x2 : Fin 4 → Fin 2048 → Fin 1024 → ℝ) (W3 : Fin 1024 → Fin 1024 → ℝ) (b4 : Fin 1024 → ℝ)
      (W5 : Fin 1024 → Fin 1024 → ℝ) (b6 : Fin 1024 → ℝ) (W7 : Fin 1024 → Fin 1024 → ℝ) (b8 : Fin 1024 → ℝ),
      (∀ b s e, m ((c.tc : Thread Cert.KernelIdeal.nD Cert.KernelIdeal.τ).loc main_arg0) (ix3 b s e) = ((x0 b s e : ℝ) : EReal))
      ∧ (∀ b s e, m ((c.tc : Thread _ _).loc main_arg1) (ix3 b s e) = ((x1 b s e : ℝ) : EReal))
      ∧ (∀ b s e, m ((c.tc : Thread _ _).loc main_arg2) (ix3 b s e) = ((x2 b s e : ℝ) : EReal))
      ∧ (∀ e j, m ((c.tc : Thread _ _).loc main_arg3) (ix2 e j) = ((W3 e j : ℝ) : EReal))
      ∧ (∀ j, m ((c.tc : Thread _ _).loc main_arg4) (ix1 j) = ((b4 j : ℝ) : EReal))
      ∧ (∀ e j, m ((c.tc : Thread _ _).loc main_arg5) (ix2 e j) = ((W5 e j : ℝ) : EReal))
      ∧ (∀ j, m ((c.tc : Thread _ _).loc main_arg6) (ix1 j) = ((b6 j : ℝ) : EReal))
      ∧ (∀ e j, m ((c.tc : Thread _ _).loc main_arg7) (ix2 e j) = ((W7 e j : ℝ) : EReal))
      ∧ (∀ j, m ((c.tc : Thread _ _).loc main_arg8) (ix1 j) = ((b8 j : ℝ) : EReal)) := by
  have h := congrFun (hpre c) ix0
  dsimp only [Cert.Pre_finite_inputs.fn, Cert.Pre_finite_inputs.fn_part1, Cert.Pre_finite_inputs.fn_part2] at h
  obtain ⟨h, h8⟩ := andi_apply_eq_one _ _ _ h
  obtain ⟨h, h7⟩ := andi_apply_eq_one _ _ _ h
  obtain ⟨h, h6⟩ := andi_apply_eq_one _ _ _ h
  obtain ⟨h, h5⟩ := andi_apply_eq_one _ _ _ h
  obtain ⟨h, h4⟩ := andi_apply_eq_one _ _ _ h
  obtain ⟨h, h3⟩ := andi_apply_eq_one _ _ _ h
  obtain ⟨h, h2⟩ := andi_apply_eq_one _ _ _ h
  obtain ⟨h0, h1⟩ := andi_apply_eq_one _ _ _ h
  refine ⟨fun b s e => EReal.toReal (m ((c.tc : Thread Cert.KernelIdeal.nD Cert.KernelIdeal.τ).loc main_arg0) (ix3 b s e)),
    fun b s e => EReal.toReal (m ((c.tc : Thread Cert.KernelIdeal.nD Cert.KernelIdeal.τ).loc main_arg1) (ix3 b s e)),
    fun b s e => EReal.toReal (m ((c.tc : Thread Cert.KernelIdeal.nD Cert.KernelIdeal.τ).loc main_arg2) (ix3 b s e)),
    fun e j => EReal.toReal (m ((c.tc : Thread Cert.KernelIdeal.nD Cert.KernelIdeal.τ).loc main_arg3) (ix2 e j)),
    fun j => EReal.toReal (m ((c.tc : Thread Cert.KernelIdeal.nD Cert.KernelIdeal.τ).loc main_arg4) (ix1 j)),
    fun e j => EReal.toReal (m ((c.tc : Thread Cert.KernelIdeal.nD Cert.KernelIdeal.τ).loc main_arg5) (ix2 e j)),
    fun j => EReal.toReal (m ((c.tc : Thread Cert.KernelIdeal.nD Cert.KernelIdeal.τ).loc main_arg6) (ix1 j)),
    fun e j => EReal.toReal (m ((c.tc : Thread Cert.KernelIdeal.nD Cert.KernelIdeal.τ).loc main_arg7) (ix2 e j)),
    fun j => EReal.toReal (m ((c.tc : Thread Cert.KernelIdeal.nD Cert.KernelIdeal.τ).loc main_arg8) (ix1 j)),
    fun b s e => coe_toReal_of_all _ _ (fun _ => rfl) _ _ _ h0 (ix3 b s e),
    fun b s e => coe_toReal_of_all _ _ (fun _ => rfl) _ _ _ h1 (ix3 b s e),
    fun b s e => coe_toReal_of_all _ _ (fun _ => rfl) _ _ _ h2 (ix3 b s e),
    fun e j => coe_toReal_of_all _ _ (fun _ => rfl) _ _ _ h3 (ix2 e j),
    fun j => coe_toReal_of_all _ _ (fun _ => rfl) _ _ _ h4 (ix1 j),
    fun e j => coe_toReal_of_all _ _ (fun _ => rfl) _ _ _ h5 (ix2 e j),
    fun j => coe_toReal_of_all _ _ (fun _ => rfl) _ _ _ h6 (ix1 j),
    fun e j => coe_toReal_of_all _ _ (fun _ => rfl) _ _ _ h7 (ix2 e j),
    fun j => coe_toReal_of_all _ _ (fun _ => rfl) _ _ _ h8 (ix1 j)⟩

end Cert.Finite

end
-- ==== Proof.HostVals.lean ====
import proofs.«401961_j51299089383807_3_alg».proof.Proof.KI.Fold
import Idealize.ShloMosaic.Lib.ValueIdx
import Idealize.ShloMosaic.Lib.Pipeline.Value
import Idealize.ShloMosaic.Lib.StableHlo.Run

set_option maxRecDepth 16384

noncomputable section

namespace Cert.KVal

open Idealize.ShloMosaic Idealize.ShloMosaic.TcCoe Idealize.ShloMosaic.ValueIdx
open Idealize.ShloMosaic.Pipeline (Dat Cfg Window)
open Cert.KernelIdeal Cert.KernelIdeal.Gen Cert.KernelIdeal.Fr

variable (m : (ℓ : Loc nD τ sig) → Buf (Elt Ideal) ℓ) (ρ : Dev nD → PrngReg)

-- Merging batch and sequence axes is a relabelling of indices.
theorem hostFlat_apply (x : S4x2048x1024.Idx → EReal) (r : Fin 8192) (e : Fin 1024) :
    shapeCast S8192x1024 x shapeCasts_S4x2048x1024_S8192x1024 (ix2 r e)
      = x (ix3 ⟨r.val / 2048, by omega⟩ ⟨r.val % 2048, by omega⟩ e) := by
  refine shapeCast_apply x _ _ _ ?_
  rw [Shape.rowMajor_val_three, Shape.rowMajor_val_two]
  show (r.val / 2048 * 2048 + r.val % 2048) * 1024 + e.val = r.val * 1024 + e.val
  omega

theorem hostUnflat_apply (x : S8192x1024.Idx → EReal) (b : Fin 4) (s : Fin 2048) (d : Fin 1024) :
    shapeCast S4x2048x1024 x shapeCasts_S8192x1024_S4x2048x1024 (ix3 b s d)
      = x (ix2 ⟨2048 * b.val + s.val, by omega⟩ d) := by
  refine shapeCast_apply x _ _ _ ?_
  rw [Shape.rowMajor_val_three, Shape.rowMajor_val_two]
  show (2048 * b.val + s.val) * 1024 + d.val = (b.val * 2048 + s.val) * 1024 + d.val
  omega

theorem hostRow_apply (x : S1024.Idx → EReal) (j : Fin 1024) :
    shapeCast S1x1024 x shapeCasts_S1024_S1x1024 (ix2 (0 : Fin 1) j) = x (ix1 j) := by
  refine shapeCast_apply x _ _ _ ?_
  rw [Shape.rowMajor_val_one, Shape.rowMajor_val_two]
  show j.val = 0 * 1024 + j.val
  omega

theorem V1_v3 (c : Dev nD) (r : Fin 8192) (e : Fin 1024) :
    V1 (F := Ideal) m ρ c main_v3 (ix2 r e)
      = m ((c : Thread nD τ).loc main_arg1) (ix3 ⟨r.val / 2048, by omega⟩ ⟨r.val % 2048, by omega⟩ e) := by
  have hE : (V1 (F := Ideal) m ρ c main_v3 : S8192x1024.Idx → EReal)
      = shapeCast S8192x1024 (m ((c : Thread nD τ).loc main_arg1) : S4x2048x1024.Idx → EReal) shapeCasts_S4x2048x1024_S8192x1024 := by
    show StableHlo.after hostOps0 _ (Proc.devRef .tc main_v3) = _
    after_results
    rfl
  exact (congrFun hE _).trans (hostFlat_apply _ r e)

theorem V1_v1 (c : Dev nD) (e j : Fin 1024) :
    V1 (F := Ideal) m ρ c main_v1 (ix2 e j) = m ((c : Thread nD τ).loc main_arg5) (ix2 e j) := by
  have hE : (V1 (F := Ideal) m ρ c main_v1 : S1024x1024.Idx → EReal)
      = (m ((c : Thread nD τ).loc main_arg5) : S1024x1024.Idx → EReal) := by
    show StableHlo.after hostOps0 _ (Proc.devRef .tc main_v1) = _
    after_results
    rfl
  exact congrFun hE _

theorem V1_v4 (c : Dev nD) (j : Fin 1024) :
    V1 (F := Ideal) m ρ c main_v4 (ix2 (0 : Fin 1) j) = m ((c : Thread nD τ).loc main_arg6) (ix1 j) := by
  have hE : (V1 (F := Ideal) m ρ c main_v4 : S1x1024.Idx → EReal)
      = shapeCast S1x1024 (m ((c : Thread nD τ).loc main_arg6) : S1024.Idx → EReal) shapeCasts_S1024_S1x1024 := by
    show StableHlo.after hostOps0 _ (Proc.devRef .tc main_v4) = _
    after_results
    rfl
  exact (congrFun hE _).trans (hostRow_apply _ j)

theorem hostW2_arg2 (c : Dev nD) : W2 (F := Ideal) m ρ c (Proc.devRef .tc main_arg2) = m ((c : Thread nD τ).loc main_arg2) :=
  (W2_of_ne m ρ c main_arg2 (by decide)).trans <| (W1_of m ρ c main_arg2 (by decide)).trans rfl
theorem hostW2_arg8 (c : Dev nD) : W2 (F := Ideal) m ρ c (Proc.devRef .tc main_arg8) = m ((c : Thread nD τ).loc main_arg8) :=
  (W2_of_ne m ρ c main_arg8 (by decide)).trans <| (W1_of m ρ c main_arg8 (by decide)).trans rfl

theorem V3_v6 (c : Dev nD) (r : Fin 8192) (e : Fin 1024) :
    V3 (F := Ideal) m ρ c main_v6 (ix2 r e)
      = m ((c : Thread nD τ).loc main_arg2) (ix3 ⟨r.val / 2048, by omega⟩ ⟨r.val % 2048, by omega⟩ e) := by
  have hE : (V3 (F := Ideal) m ρ c main_v6 : S8192x1024.Idx → EReal)
      = shapeCast S8192x1024 (m ((c : Thread nD τ).loc main_arg2) : S4x2048x1024.Idx → EReal) shapeCasts_S4x2048x1024_S8192x1024 := by
    show StableHlo.after hostOps1 _ (Proc.devRef .tc main_v6) = _
    after_results
    rw [hostW2_arg2]
    rfl
  exact (congrFun hE _).trans (hostFlat_apply _ r e)

theorem V3_v2 (c : Dev nD) (e j : Fin 1024) :
    V3 (F := Ideal) m ρ c main_v2 (ix2 e j) = m ((c : Thread nD τ).loc main_arg7) (ix2 e j) := by
  have hE : (V3 (F := Ideal) m ρ c main_v2 : S1024x1024.Idx → EReal)
      = (m ((c : Thread nD τ).loc main_arg7) : S1024x1024.Idx → EReal) := by
    refine (W3_of m ρ c main_v2 (by decide)).trans <| (W2_of_ne m ρ c main_v2 (by decide)).trans ?_
    show StableHlo.after hostOps0 _ (Proc.devRef .tc main_v2) = _
    after_results
    rfl
  exact congrFun hE _

theorem V3_v7 (c : Dev nD) (j : Fin 1024) :
    V3 (F := Ideal) m ρ c main_v7 (ix2 (0 : Fin 1) j) = m ((c : Thread nD τ).loc main_arg8) (ix1 j) := by
  have hE : (V3 (F := Ideal) m ρ c main_v7 : S1x1024.Idx → EReal)
      = shapeCast S1x1024 (m ((c : Thread nD τ).loc main_arg8) : S1024.Idx → EReal) shapeCasts_S1024_S1x1024 := by
    show StableHlo.after hostOps1 _ (Proc.devRef .tc main_v7) = _
    after_results
    rw [hostW2_arg8]
    rfl
  exact (congrFun hE _).trans (hostRow_apply _ j)

theorem V5_arg0 (c : Dev nD) : V5 (F := Ideal) m ρ c main_arg0 = m ((c : Thread nD τ).loc main_arg0) :=
  W5_arg m ρ c main_arg0 (by decide)

theorem V5_v0 (c : Dev nD) (e d : Fin 1024) :
    V5 (F := Ideal) m ρ c main_v0 (ix2 e d) = m ((c : Thread nD τ).loc main_arg3) (ix2 e d) := by
  have hE : (V5 (F := Ideal) m ρ c main_v0 : S1024x1024.Idx → EReal)
      = (m ((c : Thread nD τ).loc main_arg3) : S1024x1024.Idx → EReal) := by
    refine (W5_of m ρ c main_v0 (by decide)).trans <| (W4_of_ne m ρ c main_v0 (by decide)).trans <|
      (W3_of m ρ c main_v0 (by decide)).trans <| (W2_of_ne m ρ c main_v0 (by decide)).trans ?_
    show StableHlo.after hostOps0 _ (Proc.devRef .tc main_v0) = _
    after_results
    rfl
  exact congrFun hE _

theorem hostW4_arg4 (c : Dev nD) : W4 (F := Ideal) m ρ c (Proc.devRef .tc main_arg4) = m ((c : Thread nD τ).loc main_arg4) :=
  (W4_of_ne m ρ c main_arg4 (by decide)).trans <| (W3_of m ρ c main_arg4 (by decide)).trans <|
    (W2_of_ne m ρ c main_arg4 (by decide)).trans <| (W1_of m ρ c main_arg4 (by decide)).trans rfl

theorem V5_v11 (c : Dev nD) (d : Fin 1024) :
    V5 (F := Ideal) m ρ c main_v11 (ix2 (0 : Fin 1) d) = m ((c : Thread nD τ).loc main_arg4) (ix1 d) := by
  have hE : (V5 (F := Ideal) m ρ c main_v11 : S1x1024.Idx → EReal)
      = shapeCast S1x1024 (m ((c : Thread nD τ).loc main_arg4) : S1024.Idx → EReal) shapeCasts_S1024_S1x1024 := by
    show StableHlo.after hostOps2 _ (Proc.devRef .tc main_v11) = _
    after_results
    rw [hostW4_arg4]
    rfl
  exact (congrFun hE _).trans (hostRow_apply _ d)

theorem hostW4_v5 (c : Dev nD) :
    W4 (F := Ideal) m ρ c (Proc.devRef .tc main_v5) = (dat0 (F := Ideal) (V1 m ρ) c).arrAt 3 cfg0.N :=
  (W4_of_ne m ρ c main_v5 (by decide)).trans <| (W3_of m ρ c main_v5 (by decide)).trans (W2_arr m ρ c 3)

theorem hostW4_v8 (c : Dev nD) :
    W4 (F := Ideal) m ρ c (Proc.devRef .tc main_v8) = (dat1 (F := Ideal) (V3 m ρ) c).arrAt 3 cfg1.N :=
  W4_arr m ρ c 3

theorem V5_v9 (c : Dev nD) (b : Fin 4) (s : Fin 2048) (d : Fin 1024) :
    V5 (F := Ideal) m ρ c main_v9 (ix3 b s d)
      = (dat0 (F := Ideal) (V1 m ρ) c).arrAt 3 cfg0.N (ix2 ⟨2048 * b.val + s.val, by omega⟩ d) := by
  have hE : (V5 (F := Ideal) m ρ c main_v9 : S4x2048x1024.Idx → EReal)
      = shapeCast S4x2048x1024 ((dat0 (F := Ideal) (V1 m ρ) c).arrAt 3 cfg0.N : S8192x1024.Idx → EReal) shapeCasts_S8192x1024_S4x2048x1024 := by
    show StableHlo.after hostOps2 _ (Proc.devRef .tc main_v9) = _
    after_results
    rw [hostW4_v5]
    rfl
  exact (congrFun hE _).trans (hostUnflat_apply _ b s d)

theorem V5_v10 (c : Dev nD) (b : Fin 4) (s : Fin 2048) (j : Fin 1024) :
    V5 (F := Ideal) m ρ c main_v10 (ix3 b s j)
      = (dat1 (F := Ideal) (V3 m ρ) c).arrAt 3 cfg1.N (ix2 ⟨2048 * b.val + s.val, by omega⟩ j) := by
  have hE : (V5 (F := Ideal) m ρ c main_v10 : S4x2048x1024.Idx → EReal)
      = shapeCast S4x2048x1024 ((dat1 (F := Ideal) (V3 m ρ) c).arrAt 3 cfg1.N : S8192x1024.Idx → EReal) shapeCasts_S8192x1024_S4x2048x1024 := by
    show StableHlo.after hostOps2 _ (Proc.devRef .tc main_v10) = _
    after_results
    rw [hostW4_v8]
    rfl
  exact (congrFun hE _).trans (hostUnflat_apply _ b s j)

end Cert.KVal

end
-- ==== Proof.PayAttn.lean ====
import Idealize.ShloMosaic.Lib.ValueIdx
import Idealize.ShloMosaic.Lib.Pipeline.Value
import Idealize.ShloMosaic.Lib.ValueLayout
import Idealize.ShloMosaic.PureOps.Ideal.Laws
import proofs.«401961_j51299089383807_3_alg».proof.Proof.Gen.KernelIdeal.Skeleton
import proofs.«401961_j51299089383807_3_alg».proof.Proof.Spec

noncomputable section

open scoped BigOperators

namespace Cert.PayIdx

open Idealize.ShloMosaic Idealize.ShloMosaic.ValueIdx Cert.KernelIdeal Cert.KernelIdeal.Gen Cert.Spec

namespace Attn

private theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

private theorem fold_max_coe {n : Nat} (hn : (Finset.univ : Finset (Fin n)).Nonempty) (f : Fin n → ℝ) :
    (Finset.univ : Finset (Fin n)).fold max (⊥ : EReal) (fun k => ((f k : ℝ) : EReal))
      = ((Finset.univ.sup' hn f : ℝ) : EReal) := by
  have h1 : (Finset.univ : Finset (Fin n)).fold max (⊥ : EReal) (fun k => ((f k : ℝ) : EReal))
      = Finset.univ.sup (fun k => ((f k : ℝ) : EReal)) := rfl
  rw [h1, ← Finset.sup'_eq_sup hn]
  exact (Finset.comp_sup'_eq_sup'_comp hn (fun x : ℝ => (x : EReal)) (fun x y => EReal.coe_strictMono.monotone.map_max)).symm

private theorem ofBits_neg_inf : Ideal.ofBits .f32 0xFF800000#32 = ⊥ := by
  simp [Ideal.ofBits, Ideal.ieee]

private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

private theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

theorem lhs_dot1024_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_dot1024_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_dot1024_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_dot1024_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

-- A 1024×1024 matrix product into a zero accumulator is the plain sum over the contracted axis.
theorem matmul1024_apply {φ₁ φ₂ : FTy} (a : FVec Ideal S1024x1024 φ₁) (b : FVec Ideal S1024x1024 φ₂) (r j : Fin 1024) :
    matmul dot_S1024x1024_S1024x1024_S1024x1024_1_0_0_1_n_n none a b (constant (F := Ideal) S1024x1024 .f32 0x00000000#32) (ix2 r j)
      = ∑ k : Fin 1024, a (ix2 r k) * b (ix2 k j) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r j) ((contrEquiv1 dot_S1024x1024_S1024x1024_S1024x1024_1_0_0_1_n_n 1024 rfl rfl).symm k) = ix2 r k := funext fun c => Fin.ext (by
    match c with
    | ⟨0, _⟩ => exact lhs_dot1024_0 _ _
    | ⟨1, _⟩ => exact (lhs_dot1024_1 _ _).trans hk)
  have er : dot_S1024x1024_S1024x1024_S1024x1024_1_0_0_1_n_n.rhsIdx (ix2 r j) ((contrEquiv1 dot_S1024x1024_S1024x1024_S1024x1024_1_0_0_1_n_n 1024 rfl rfl).symm k) = ix2 k j := funext fun c => Fin.ext (by
    match c with
    | ⟨0, _⟩ => exact (rhs_dot1024_0 _ _).trans hk
    | ⟨1, _⟩ => exact rhs_dot1024_1 _ _)
  rw [el, er]

theorem laneSum_apply (src : FVec Ideal S1024x1024 .f32) (h : S1024x1024.Reduces [1] S1024)
    (hφ : FKind.Formats .f32) (hacc : (0x00000000#32 : BitVec 32) = FKind.add.neutral .f32 hφ) (r : Fin 1024) :
    multiReduction (F := Ideal) .add [1] S1024 src 0x00000000#32 h hφ hacc (ix1 r) = ∑ s : Fin 1024, src (ix2 r s) := by
  refine (Ideal.multiReduction_add_single src _ h hφ hacc (ix1 r)).trans ?_
  refine Finset.sum_congr rfl fun s _ => congrArg src ?_
  funext c
  match c with
  | ⟨0, _⟩ => exact Fin.ext rfl
  | ⟨1, _⟩ => exact Fin.ext rfl

theorem laneMax_apply (src : FVec Ideal S1024x1024 .f32) (h : S1024x1024.Reduces [1] S1024)
    (hφ : FKind.Formats .f32) (hacc : (0xFF800000#32 : BitVec 32) = FKind.maximumf.neutral .f32 hφ)
    (f : Fin 1024 → Fin 1024 → ℝ) (hsrc : ∀ r s, src (ix2 r s) = ((f r s : ℝ) : EReal)) (r : Fin 1024) :
    multiReduction (F := Ideal) .maximumf [1] S1024 src 0xFF800000#32 h hφ hacc (ix1 r) = ((tileMax (f r) : ℝ) : EReal) := by
  refine (Ideal.multiReduction_maximumf_single src _ h hφ hacc (ix1 r)).trans ?_
  have e : (src ∘ h.lift (ix1 r)) = fun k : Fin 1024 => ((f r k : ℝ) : EReal) := by
    funext k
    refine (congrArg src ?_).trans (hsrc r k)
    funext c
    match c with
    | ⟨0, _⟩ => exact Fin.ext rfl
    | ⟨1, _⟩ => exact Fin.ext rfl
  show (Finset.univ : Finset (Fin 1024)).fold max (Ideal.ofBits .f32 0xFF800000#32) (src ∘ h.lift (ix1 r)) = _
  rw [e, ofBits_neg_inf]
  exact fold_max_coe Finset.univ_nonempty (f r)

theorem pay5_apply (i : S1024x1.Idx) : k2_pay5 (F := Ideal) i = ⊥ := by
  unfold k2_pay5
  refine (congrFun (shapeCast_self _ _) i).trans ?_
  exact ofBits_neg_inf

theorem pay2_apply (v : FVec Ideal S1024x1 .f32) (i : S1024x1.Idx) : k2_pay2 (F := Ideal) v i = v i := by
  unfold k2_pay2
  exact congrFun (shapeCast_self _ _) i

theorem pay8_apply (x4 : Vec Ideal S1x1024x1024 .bf16) (s j : Fin 1024) :
    k2_pay8 (F := Ideal) x4 (ix2 s j) = x4 (ix3 (0 : Fin 1) s j) := by
  unfold k2_pay8
  exact shapeCast_1ab_ab_apply _ _ s j

theorem pay9_apply (q : Vec Ideal S1024x1024 .bf16) (x3 : Vec Ideal S1x1024x1024 .bf16)
    (qr kr : Fin 1024 → Fin 1024 → ℝ)
    (hq : ∀ r d, q (ix2 r d) = ((qr r d : ℝ) : EReal))
    (hk : ∀ s d, x3 (ix3 (0 : Fin 1) s d) = ((kr s d : ℝ) : EReal)) (r s : Fin 1024) :
    k2_pay9 (F := Ideal) q x3 (ix2 r s) = ((tileScore qr kr r s : ℝ) : EReal) := by
  unfold k2_pay9
  refine (matmul1024_apply _ _ r s).trans ?_
  unfold tileScore
  rw [coe_sum]
  refine Finset.sum_congr rfl fun d _ => ?_
  rw [transpose_ix2_apply, shapeCast_1ab_ab_apply, hq, hk, EReal.coe_mul]

theorem pay10_apply (q : Vec Ideal S1024x1024 .bf16) (x3 : Vec Ideal S1x1024x1024 .bf16)
    (qr kr : Fin 1024 → Fin 1024 → ℝ)
    (hq : ∀ r d, q (ix2 r d) = ((qr r d : ℝ) : EReal))
    (hk : ∀ s d, x3 (ix3 (0 : Fin 1) s d) = ((kr s d : ℝ) : EReal))
    (m0 : Vec Ideal S1024x1 .f32) (r : Fin 1024) :
    k2_pay10 (F := Ideal) q x3 m0 (ix2 r (0 : Fin 1))
      = max (m0 (ix2 r (0 : Fin 1))) ((tileMax (tileScore qr kr r) : ℝ) : EReal) := by
  unfold k2_pay10
  refine (maximumf_apply _ _ _).trans ?_
  refine congrArg (max (m0 (ix2 r (0 : Fin 1)))) ?_
  refine (shapeCast_a_a1_apply _ _ r 0).trans ?_
  exact laneMax_apply _ _ _ _ (tileScore qr kr) (pay9_apply q x3 qr kr hq hk) r

theorem pay11_apply (q : Vec Ideal S1024x1024 .bf16) (x3 : Vec Ideal S1x1024x1024 .bf16)
    (m0 m' : Vec Ideal S1024x1 .f32) (i : S1024x1.Idx) :
    k2_pay11 (F := Ideal) q x3 m0 m' i = Ideal.exp (m' i - k2_pay10 q x3 m0 i) := rfl

theorem pay12_apply (q : Vec Ideal S1024x1024 .bf16) (x3 : Vec Ideal S1x1024x1024 .bf16)
    (m0 : Vec Ideal S1024x1 .f32) (r s : Fin 1024) :
    k2_pay12 (F := Ideal) q x3 m0 (ix2 r s)
      = Ideal.exp (k2_pay9 q x3 (ix2 r s) - k2_pay10 q x3 m0 (ix2 r (0 : Fin 1))) := by
  unfold k2_pay12
  show Ideal.exp (k2_pay9 q x3 (ix2 r s) - broadcastTo S1024x1024 (k2_pay10 q x3 m0) _ (ix2 r s)) = _
  rw [broadcastTo_a1_ab_apply]

theorem pay13_apply (q : Vec Ideal S1024x1024 .bf16) (x3 : Vec Ideal S1x1024x1024 .bf16)
    (m0 m' l : Vec Ideal S1024x1 .f32) (r : Fin 1024) :
    k2_pay13 (F := Ideal) q x3 m0 m' l (ix2 r (0 : Fin 1))
      = k2_pay11 q x3 m0 m' (ix2 r (0 : Fin 1)) * l (ix2 r (0 : Fin 1)) + ∑ s : Fin 1024, k2_pay12 q x3 m0 (ix2 r s) := by
  unfold k2_pay13
  refine (congrFun (shapeCast_self _ _) _).trans ?_
  refine congrArg (k2_pay11 q x3 m0 m' (ix2 r (0 : Fin 1)) * l (ix2 r (0 : Fin 1)) + ·) ?_
  refine (shapeCast_a_a1_apply _ _ r 0).trans ?_
  exact laneSum_apply _ _ _ _ r

theorem pay14_apply (q : Vec Ideal S1024x1024 .bf16) (x3 : Vec Ideal S1x1024x1024 .bf16)
    (m0 m' : Vec Ideal S1024x1 .f32) (acc : Vec Ideal S1024x1024 .f32) (r j : Fin 1024) :
    k2_pay14 (F := Ideal) q x3 m0 m' acc (ix2 r j)
      = k2_pay11 q x3 m0 m' (ix2 r (0 : Fin 1)) * acc (ix2 r j) := by
  unfold k2_pay14
  show broadcastTo S1024x1024 (k2_pay11 q x3 m0 m') _ (ix2 r j) * acc (ix2 r j) = _
  rw [broadcastTo_a1_ab_apply]

theorem pay15_apply (q : Vec Ideal S1024x1024 .bf16) (x3 : Vec Ideal S1x1024x1024 .bf16)
    (m0 : Vec Ideal S1024x1 .f32) (i : S1024x1024.Idx) :
    k2_pay15 (F := Ideal) q x3 m0 i = k2_pay12 q x3 m0 i := rfl

theorem pay1_apply (v7 : FVec Ideal S1024x1024 .bf16) (v30 : FVec Ideal S1024x1024 .f32)
    (v31 : FVec Ideal S1024x1024 .bf16) (r j : Fin 1024) :
    k2_pay1 (F := Ideal) v7 v30 v31 (ix2 r j) = v30 (ix2 r j) + ∑ s : Fin 1024, v31 (ix2 r s) * v7 (ix2 s j) := by
  unfold k2_pay1
  refine (congrFun (shapeCast_self _ _) _).trans ?_
  exact congrArg (v30 (ix2 r j) + ·) (matmul1024_apply v31 v7 r j)

theorem pay3_apply (acc : Vec Ideal S1024x1024 .f32) (l : Vec Ideal S1024x1 .f32) (r j : Fin 1024) :
    k2_pay3 (F := Ideal) acc l (ix3 (0 : Fin 1) r j) = Ideal.div (acc (ix2 r j)) (l (ix2 r (0 : Fin 1))) := by
  unfold k2_pay3
  refine (shapeCast_ab_1ab_apply _ _ 0 r j).trans ?_
  show Ideal.div (acc (ix2 r j)) (broadcastTo S1024x1024 l _ (ix2 r j)) = _
  rw [broadcastTo_a1_ab_apply]

end Attn

open Attn

section
variable (q : Vec Ideal S1024x1024 .bf16) (x3 x4 : Vec Ideal S1x1024x1024 .bf16)
  (qr kr vr : Fin 1024 → Fin 1024 → ℝ)
  (hq : ∀ r d, q (ix2 r d) = ((qr r d : ℝ) : EReal))
  (hk : ∀ s d, x3 (ix3 (0 : Fin 1) s d) = ((kr s d : ℝ) : EReal))
  (hv : ∀ s j, x4 (ix3 (0 : Fin 1) s j) = ((vr s j : ℝ) : EReal))

include hq hk in

theorem Attn.pay12_real (m0 : Vec Ideal S1024x1 .f32) (r : Fin 1024) (M : ℝ)
    (hM : k2_pay10 (F := Ideal) q x3 m0 (ix2 r (0 : Fin 1)) = ((M : ℝ) : EReal)) (s : Fin 1024) :
    k2_pay12 (F := Ideal) q x3 m0 (ix2 r s) = ((Real.exp (tileScore qr kr r s - M) : ℝ) : EReal) := by
  rw [pay12_apply, pay9_apply q x3 qr kr hq hk, hM, ← EReal.coe_sub]
  rfl

include hq hk in

theorem first_m (r : Fin 1024) :
    k2_pay2 (F := Ideal) (k2_pay10 q x3 (k2_pay5 (F := Ideal))) (ix2 r (0 : Fin 1)) = ((m1 (tileScore qr kr r) : ℝ) : EReal) := by
  rw [pay2_apply, pay10_apply q x3 qr kr hq hk, pay5_apply]
  exact max_bot_left _

include hq hk in

theorem first_l (r : Fin 1024) :
    k2_pay13 (F := Ideal) q x3 (k2_pay5 (F := Ideal)) (k2_pay5 (F := Ideal)) (k2_pay6 (F := Ideal)) (ix2 r (0 : Fin 1)) = ((l1 (tileScore qr kr r) : ℝ) : EReal) := by
  have hM : k2_pay10 (F := Ideal) q x3 (k2_pay5 (F := Ideal)) (ix2 r (0 : Fin 1)) = ((tileMax (tileScore qr kr r) : ℝ) : EReal) := by
    rw [pay10_apply q x3 qr kr hq hk, pay5_apply]; exact max_bot_left _
  rw [pay13_apply, pay11_apply, pay5_apply, EReal.bot_sub, Ideal.exp_bot, zero_mul, zero_add]
  unfold l1
  rw [coe_sum]
  exact Finset.sum_congr rfl fun s _ => pay12_real q x3 qr kr hq hk _ r _ hM s

include hq hk hv in

theorem first_acc (r j : Fin 1024) :
    k2_pay1 (F := Ideal) (k2_pay8 x4) (k2_pay14 q x3 (k2_pay5 (F := Ideal)) (k2_pay5 (F := Ideal)) (k2_pay7 (F := Ideal))) (k2_pay15 q x3 (k2_pay5 (F := Ideal))) (ix2 r j)
      = ((acc1 (tileScore qr kr r) vr j : ℝ) : EReal) := by
  have hM : k2_pay10 (F := Ideal) q x3 (k2_pay5 (F := Ideal)) (ix2 r (0 : Fin 1)) = ((tileMax (tileScore qr kr r) : ℝ) : EReal) := by
    rw [pay10_apply q x3 qr kr hq hk, pay5_apply]; exact max_bot_left _
  rw [pay1_apply, pay14_apply, pay11_apply, pay5_apply, EReal.bot_sub, Ideal.exp_bot, zero_mul, zero_add]
  unfold acc1
  rw [coe_sum]
  refine Finset.sum_congr rfl fun s _ => ?_
  rw [pay15_apply, pay12_real q x3 qr kr hq hk _ r _ hM s, pay8_apply, hv, EReal.coe_mul]

variable (m l : Vec Ideal S1024x1 .f32) (acc : Vec Ideal S1024x1024 .f32)
  (mr lr : Fin 1024 → ℝ) (accr : Fin 1024 → Fin 1024 → ℝ)
  (hm : ∀ r, m (ix2 r (0 : Fin 1)) = ((mr r : ℝ) : EReal)) (hl : ∀ r, l (ix2 r (0 : Fin 1)) = ((lr r : ℝ) : EReal))
  (hacc : ∀ r j, acc (ix2 r j) = ((accr r j : ℝ) : EReal))

include hq hk hm in

theorem Attn.pay10_real (r : Fin 1024) :
    k2_pay10 (F := Ideal) q x3 m (ix2 r (0 : Fin 1)) = ((m2 (mr r) (tileScore qr kr r) : ℝ) : EReal) := by
  rw [pay10_apply q x3 qr kr hq hk, hm]
  exact (EReal.coe_strictMono.monotone.map_max).symm

include hq hk hm in

theorem Attn.pay11_real (r : Fin 1024) :
    k2_pay11 (F := Ideal) q x3 m m (ix2 r (0 : Fin 1))
      = ((Real.exp (mr r - m2 (mr r) (tileScore qr kr r)) : ℝ) : EReal) := by
  rw [pay11_apply, pay10_real q x3 qr kr hq hk m mr hm, hm, ← EReal.coe_sub]
  rfl

include hq hk hm hl in

theorem next_l (r : Fin 1024) :
    k2_pay13 (F := Ideal) q x3 m m l (ix2 r (0 : Fin 1)) = ((l2 (mr r) (lr r) (tileScore qr kr r) : ℝ) : EReal) := by
  rw [pay13_apply, pay11_real q x3 qr kr hq hk m mr hm, hl]
  unfold l2
  rw [EReal.coe_add, EReal.coe_mul, coe_sum]
  congr 1
  exact Finset.sum_congr rfl fun s _ => pay12_real q x3 qr kr hq hk m r _ (pay10_real q x3 qr kr hq hk m mr hm r) s

include hq hk hv hm hacc in

theorem next_acc (r j : Fin 1024) :
    k2_pay1 (F := Ideal) (k2_pay8 x4) (k2_pay14 q x3 m m acc) (k2_pay15 q x3 m) (ix2 r j)
      = ((acc2 (mr r) (accr r) (tileScore qr kr r) vr j : ℝ) : EReal) := by
  rw [pay1_apply, pay14_apply, pay11_real q x3 qr kr hq hk m mr hm, hacc]
  unfold acc2
  rw [EReal.coe_add, EReal.coe_mul, coe_sum]
  congr 1
  refine Finset.sum_congr rfl fun s _ => ?_
  rw [pay15_apply, pay12_real q x3 qr kr hq hk m r _ (pay10_real q x3 qr kr hq hk m mr hm r) s, pay8_apply, hv,
    EReal.coe_mul]

include hl hacc in

theorem out_real (hpos : ∀ r, lr r ≠ 0) (r j : Fin 1024) :
    k2_pay3 (F := Ideal) acc l (ix3 (0 : Fin 1) r j) = ((accr r j / lr r : ℝ) : EReal) := by
  rw [pay3_apply, hacc, hl, Ideal.div_coe (hpos r), ← EReal.coe_mul, mul_one_div]
end

end Cert.PayIdx

end
-- ==== Proof.PayLin.lean ====
import proofs.«401961_j51299089383807_3_alg».proof.Proof.Gen.KernelIdeal.Skeleton
import proofs.«401961_j51299089383807_3_alg».proof.Proof.PayAttn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.PayIdx

open Idealize.ShloMosaic Idealize.ShloMosaic.ValueIdx Cert.KernelIdeal Cert.KernelIdeal.Gen

namespace Lin

private theorem coe_sum {ι : Type} (s : Finset ι) (f : ι → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

theorem lhsA_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem lhsA_1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem rhsA_0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem rhsA_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

theorem matmulA_apply (a : FVec Ideal S2048x1024 .bf16) (b : FVec Ideal S1024x1024 .bf16) (r : Fin 2048) (j : Fin 1024) :
    matmul (F := Ideal) dot_S2048x1024_S1024x1024_S2048x1024_1_0_0_1_n_n none a b (constant (F := Ideal) S2048x1024 .f32 0x00000000#32) (ix2 r j)
      = ∑ k : Fin 1024, a (ix2 r k) * b (ix2 k j) := by
  refine (Ideal.matmul_constant_zero_apply dot_S2048x1024_S1024x1024_S2048x1024_1_0_0_1_n_n none a b (ix2 r j)).trans ?_
  rw [← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r j) ((contrEquiv1 dot_S2048x1024_S1024x1024_S2048x1024_1_0_0_1_n_n 1024 rfl rfl).symm k) = ix2 r k := funext fun a => Fin.ext (by
    match a with
    | ⟨0, _⟩ => exact lhsA_0 _ _
    | ⟨1, _⟩ => exact (lhsA_1 _ _).trans hk)
  have er : dot_S2048x1024_S1024x1024_S2048x1024_1_0_0_1_n_n.rhsIdx (ix2 r j) ((contrEquiv1 dot_S2048x1024_S1024x1024_S2048x1024_1_0_0_1_n_n 1024 rfl rfl).symm k) = ix2 k j := funext fun a => Fin.ext (by
    match a with
    | ⟨0, _⟩ => exact (rhsA_0 _ _).trans hk
    | ⟨1, _⟩ => exact rhsA_1 _ _)
  rw [el, er]
-- The scale the query is multiplied by is exactly 1/32.
theorem ofBits_inv32 : Ideal.ofBits .f32 0x3D000000#32 = (((1 / 32 : ℝ)) : EReal) := by
  have h : Ideal.ofBits .f32 0x3D000000#32 = ((8388608 : ℝ) : EReal) * ((((2 : ℝ) ^ 28)⁻¹ : ℝ) : EReal) := by
    simp [Ideal.ofBits, Ideal.ieee]
  rw [h, ← EReal.coe_mul]
  exact congrArg _ (by norm_num)

end Lin

open Lin

theorem lin0 (v0 : Vec Ideal S2048x1024 .f32) (v3 : Vec Ideal S1024x1024 .bf16) (v6 : Vec Ideal S1x1024 .f32)
    (xr : Fin 2048 → Fin 1024 → ℝ) (wr : Fin 1024 → Fin 1024 → ℝ) (br : Fin 1024 → ℝ)
    (h0 : ∀ r e, v0 (ix2 r e) = ((xr r e : ℝ) : EReal)) (h3 : ∀ e j, v3 (ix2 e j) = ((wr e j : ℝ) : EReal))
    (h6 : ∀ j, v6 (ix2 (0 : Fin 1) j) = ((br j : ℝ) : EReal)) (r : Fin 2048) (j : Fin 1024) :
    k0_pay1 (F := Ideal) v0 v3 v6 (ix2 r j) = (((∑ e : Fin 1024, xr r e * wr e j) + br j : ℝ) : EReal) := by
  unfold k0_pay1
  simp only [shapeCast_self]
  refine (truncf_apply (φ := .f32) (ψ := .bf16) _ bitsLt_bf16_f32 _).trans ?_
  refine (addf_apply _ _ _).trans ?_
  refine (congrArg₂ (· + ·) (matmulA_apply _ v3 r j) (broadcastTo_1b_ab_apply v6 _ r j)).trans ?_
  rw [h6, EReal.coe_add, ← coe_sum]
  refine congrArg (· + ((br j : ℝ) : EReal)) (Finset.sum_congr rfl fun k _ => ?_)
  rw [truncf_apply, h0, h3, EReal.coe_mul]

theorem lin1 (v0 : Vec Ideal S2048x1024 .f32) (v3 : Vec Ideal S1024x1024 .bf16) (v6 : Vec Ideal S1x1024 .f32)
    (xr : Fin 2048 → Fin 1024 → ℝ) (wr : Fin 1024 → Fin 1024 → ℝ) (br : Fin 1024 → ℝ)
    (h0 : ∀ r e, v0 (ix2 r e) = ((xr r e : ℝ) : EReal)) (h3 : ∀ e j, v3 (ix2 e j) = ((wr e j : ℝ) : EReal))
    (h6 : ∀ j, v6 (ix2 (0 : Fin 1) j) = ((br j : ℝ) : EReal)) (r : Fin 2048) (j : Fin 1024) :
    k1_pay1 (F := Ideal) v0 v3 v6 (ix2 r j) = (((∑ e : Fin 1024, xr r e * wr e j) + br j : ℝ) : EReal) :=
  lin0 v0 v3 v6 xr wr br h0 h3 h6 r j

theorem q_real (x0 : Vec Ideal S1x1024x1024 .f32) (x1 : Vec Ideal S1024x1024 .bf16) (x2 : Vec Ideal S1x1024 .f32)
    (xr : Fin 1024 → Fin 1024 → ℝ) (wr : Fin 1024 → Fin 1024 → ℝ) (br : Fin 1024 → ℝ)
    (h0 : ∀ r e, x0 (ix3 (0 : Fin 1) r e) = ((xr r e : ℝ) : EReal)) (h1 : ∀ e d, x1 (ix2 e d) = ((wr e d : ℝ) : EReal))
    (h2 : ∀ d, x2 (ix2 (0 : Fin 1) d) = ((br d : ℝ) : EReal)) (r d : Fin 1024) :
    k2_pay4 (F := Ideal) x0 x1 x2 (ix2 r d) = ((((∑ e : Fin 1024, xr r e * wr e d) + br d) * (1 / 32) : ℝ) : EReal) := by
  unfold k2_pay4
  simp only [shapeCast_self]
  refine (truncf_apply (φ := .f32) (ψ := .bf16) _ bitsLt_bf16_f32 _).trans ?_
  refine (mulf_apply _ _ _).trans ?_
  refine (congrArg₂ (· * ·) ((addf_apply _ _ _).trans (congrArg₂ (· + ·) (Attn.matmul1024_apply (φ₁ := .bf16) (φ₂ := .bf16) _ x1 r d)
    (broadcastTo_1b_ab_apply x2 _ r d))) (broadcast_apply _ _)).trans ?_
  have hc : (Scalar.ofBits (F := Ideal) .f32 0x3D000000#32 : Ideal .f32) = (((1 / 32 : ℝ)) : EReal) := ofBits_inv32
  rw [hc, h2, EReal.coe_mul, EReal.coe_add, ← coe_sum]
  refine congrArg (fun t => (t + ((br d : ℝ) : EReal)) * (((1 / 32 : ℝ)) : EReal)) (Finset.sum_congr rfl fun k _ => ?_)
  rw [truncf_apply, shapeCast_1ab_ab_apply, h0, h1, EReal.coe_mul]

end Cert.PayIdx

end
-- ==== Proof.KVal01.lean ====
import proofs.«401961_j51299089383807_3_alg».proof.Proof.KI.Reg0
import proofs.«401961_j51299089383807_3_alg».proof.Proof.KI.Reg1
import proofs.«401961_j51299089383807_3_alg».proof.Proof.PayLin
import Idealize.ShloMosaic.Lib.Pipeline.Value
import Idealize.ShloMosaic.Lib.ValueIdx
import Idealize.ShloMosaic.Lib.ValueIdxCoords

set_option maxRecDepth 16384

noncomputable section

open scoped BigOperators

namespace Cert.KVal

open Idealize.ShloMosaic Idealize.ShloMosaic.TcCoe Idealize.ShloMosaic.ValueIdx
open Idealize.ShloMosaic.Pipeline (Dat)
open Cert.KernelIdeal Cert.KernelIdeal.Gen Cert.KernelIdeal.Fr Cert.Spec Cert.PayIdx

variable (V : (c : Dev nD) → (b : Ref sig .tc) → Buf (Elt Ideal) ((c : Thread nD τ).loc b))

theorem hz2 : (![0, 0] : Fin 2 → Nat) = fun _ => 0 := funext fun a => by fin_cases a <;> rfl

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt0 (t : Fin cfg0.N) : t.val < 4 := by have h := t.isLt; have hN : cfg0.N = 4 := N_0; omega

theorem blk0_x (c : Dev nD) (t : Fin cfg0.N) (p : Fin 2048) (e : Fin 1024) (k : Fin 8192) (hk : k.val = 2048 * t.val + p.val) :
    (iblk0 V c 0 t : Vec Ideal S2048x1024 .f32) (ix2 p e) = (V c main_v3 : S8192x1024.Idx → EReal) (ix2 k e) := by
  obtain ⟨e0, e1, -⟩ := idx0 t
  unfold iblk0
  rw [View.read_apply]
  show V c main_v3 _ = V c main_v3 _
  congr 1
  funext a; apply Fin.ext
  match a with
  | ⟨0, _⟩ => show win0_0.index t (0 : Fin 2) * 2048 + 1 * p.val = k.val; rw [e0, hk]; omega
  | ⟨1, _⟩ => show win0_0.index t (1 : Fin 2) * 1024 + 1 * e.val = e.val; rw [e1]; omega

theorem blk0_w (c : Dev nD) (t : Fin cfg0.N) (e j : Fin 1024) :
    (iblk0 V c 1 t : Vec Ideal S1024x1024 .bf16) (ix2 e j) = (V c main_v1 : S1024x1024.Idx → EReal) (ix2 e j) := by
  obtain ⟨-, -, e0, e1, -⟩ := idx0 t
  unfold iblk0
  rw [View.read_apply]
  show V c main_v1 _ = V c main_v1 _
  congr 1
  funext a; apply Fin.ext
  match a with
  | ⟨0, _⟩ => show win0_1.index t (0 : Fin 2) * 1024 + 1 * e.val = e.val; rw [e0]; omega
  | ⟨1, _⟩ => show win0_1.index t (1 : Fin 2) * 1024 + 1 * j.val = j.val; rw [e1]; omega

theorem blk0_b (c : Dev nD) (t : Fin cfg0.N) (j : Fin 1024) :
    (iblk0 V c 2 t : Vec Ideal S1x1024 .f32) (ix2 (0 : Fin 1) j) = (V c main_v4 : S1x1024.Idx → EReal) (ix2 (0 : Fin 1) j) := by
  obtain ⟨-, -, -, -, e0, e1, -⟩ := idx0 t
  unfold iblk0
  rw [View.read_apply]
  show V c main_v4 _ = V c main_v4 _
  congr 1
  funext a; apply Fin.ext
  match a with
  | ⟨0, _⟩ => show win0_2.index t (0 : Fin 2) * 1 + 1 * 0 = 0; rw [e0]
  | ⟨1, _⟩ => show win0_2.index t (1 : Fin 2) * 1024 + 1 * j.val = j.val; rw [e1]; omega

abbrev G0 (xr : Fin 8192 → Fin 1024 → ℝ) (wr : Fin 1024 → Fin 1024 → ℝ) (br : Fin 1024 → ℝ) : S8192x1024.Idx → EReal :=
  fun i => ((projFlat xr wr br (i 0) (i 1) : ℝ) : EReal)

theorem flushed0 (c : Dev nD) (xr : Fin 8192 → Fin 1024 → ℝ) (wr : Fin 1024 → Fin 1024 → ℝ) (br : Fin 1024 → ℝ)
    (hx : ∀ r e, V c main_v3 (ix2 r e) = ((xr r e : ℝ) : EReal)) (hw : ∀ e j, V c main_v1 (ix2 e j) = ((wr e j : ℝ) : EReal))
    (hb : ∀ j, V c main_v4 (ix2 (0 : Fin 1) j) = ((br j : ℝ) : EReal)) (t : Fin cfg0.N) :
    (dat0 (F := Ideal) V c).flushed 3 t = ((cfg0.win 3).blk t).view.read (Elt Ideal) (G0 xr wr br) := by
  show (cfg0.win 3).cut (grid0.coords t) ((dat0 V c).after 3 t) = _
  rw [after0_3]
  unfold out0_3
  rw [View.canon_unit_zero hz2]
  simp only [View.ld_unit_zero (S := S2048x1024) hz2, View.ld_unit_zero (S := S1024x1024) hz2, View.ld_unit_zero (S := S1x1024) hz2]
  have ht := lt0 t
  obtain ⟨-, -, -, -, -, -, e0, e1⟩ := idx0 t
  funext y
  obtain ⟨p, q, rfl⟩ : ∃ (p : Fin 2048) (q : Fin 1024), y = ix2 p q := ⟨y 0, y 1, eq_ix2 y⟩
  refine (lin0 _ _ _ (fun r e => xr ⟨2048 * t.val + r.val, by omega⟩ e) wr br ?_ ?_ ?_ p q).trans ?_
  · intro r e
    exact (blk0_x V c t r e ⟨2048 * t.val + r.val, by omega⟩ rfl).trans (hx _ _)
  · intro e j
    exact (blk0_w V c t e j).trans (hw _ _)
  · intro j
    exact (blk0_b V c t j).trans (hb _)
  · rw [View.read_apply]
    show _ = G0 xr wr br (((cfg0.win 3).blk t).view.emb (ix2 p q))
    have h0 : (((cfg0.win 3).blk t).view.emb (ix2 p q) : S8192x1024.Idx) = ix2 (⟨2048 * t.val + p.val, by omega⟩ : Fin 8192) q := by
      funext a; apply Fin.ext
      match a with
      | ⟨0, _⟩ => show win0_3.index t (0 : Fin 2) * 2048 + 1 * p.val = 2048 * t.val + p.val; rw [e0]; omega
      | ⟨1, _⟩ => show win0_3.index t (1 : Fin 2) * 1024 + 1 * q.val = q.val; rw [e1]; omega
    refine Eq.trans ?_ (congrArg (G0 xr wr br) h0).symm
    rfl

theorem mem_blk0 (t : Fin cfg0.N) (i : S8192x1024.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v5).slice (win0_3.rect t)).set ↔ _
  rw [View.set_slice_whole, Rect.mem_set_unit]
  exact Iff.rfl

theorem cover0 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 4 := N_0
  obtain ⟨t, ht⟩ : ∃ t : Fin cfg0.N, t.val = (i 0).val / 2048 := ⟨⟨(i 0).val / 2048, by omega⟩, rfl⟩
  obtain ⟨-, -, -, -, -, -, e0, e1⟩ := idx0 t
  refine ⟨t, flush0_3 t, ?_⟩
  rw [mem_blk0]
  intro a
  match a with
  | ⟨0, _⟩ => show win0_3.index t (0 : Fin 2) * 2048 ≤ (i 0).val ∧ (i 0).val < win0_3.index t (0 : Fin 2) * 2048 + 2048; rw [e0, ht]; omega
  | ⟨1, _⟩ => show win0_3.index t (1 : Fin 2) * 1024 ≤ (i 1).val ∧ (i 1).val < win0_3.index t (1 : Fin 2) * 1024 + 1024; rw [e1]; omega

-- The four row blocks of the key projection tile its array.
theorem arr0_real (c : Dev nD) (xr : Fin 8192 → Fin 1024 → ℝ) (wr : Fin 1024 → Fin 1024 → ℝ) (br : Fin 1024 → ℝ)
    (hx : ∀ r e, V c main_v3 (ix2 r e) = ((xr r e : ℝ) : EReal)) (hw : ∀ e j, V c main_v1 (ix2 e j) = ((wr e j : ℝ) : EReal))
    (hb : ∀ j, V c main_v4 (ix2 (0 : Fin 1) j) = ((br j : ℝ) : EReal)) (r : Fin 8192) (j : Fin 1024) :
    (dat0 (F := Ideal) V c).arrAt 3 cfg0.N (ix2 r j) = ((projFlat xr wr br r j : ℝ) : EReal) :=
  congrFun ((dat0 (F := Ideal) V c).arrAt_eq_of_cover 3 (G0 xr wr br)
    (fun t _ => flushed0 V c xr wr br hx hw hb t) cover0) (ix2 r j)

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt1 (t : Fin cfg1.N) : t.val < 4 := by have h := t.isLt; have hN : cfg1.N = 4 := N_1; omega

theorem blk1_x (c : Dev nD) (t : Fin cfg1.N) (p : Fin 2048) (e : Fin 1024) (k : Fin 8192) (hk : k.val = 2048 * t.val + p.val) :
    (iblk1 V c 0 t : Vec Ideal S2048x1024 .f32) (ix2 p e) = (V c main_v6 : S8192x1024.Idx → EReal) (ix2 k e) := by
  obtain ⟨e0, e1, -⟩ := idx1 t
  unfold iblk1
  rw [View.read_apply]
  show V c main_v6 _ = V c main_v6 _
  congr 1
  funext a; apply Fin.ext
  match a with
  | ⟨0, _⟩ => show win1_0.index t (0 : Fin 2) * 2048 + 1 * p.val = k.val; rw [e0, hk]; omega
  | ⟨1, _⟩ => show win1_0.index t (1 : Fin 2) * 1024 + 1 * e.val = e.val; rw [e1]; omega

theorem blk1_w (c : Dev nD) (t : Fin cfg1.N) (e j : Fin 1024) :
    (iblk1 V c 1 t : Vec Ideal S1024x1024 .bf16) (ix2 e j) = (V c main_v2 : S1024x1024.Idx → EReal) (ix2 e j) := by
  obtain ⟨-, -, e0, e1, -⟩ := idx1 t
  unfold iblk1
  rw [View.read_apply]
  show V c main_v2 _ = V c main_v2 _
  congr 1
  funext a; apply Fin.ext
  match a with
  | ⟨0, _⟩ => show win1_1.index t (0 : Fin 2) * 1024 + 1 * e.val = e.val; rw [e0]; omega
  | ⟨1, _⟩ => show win1_1.index t (1 : Fin 2) * 1024 + 1 * j.val = j.val; rw [e1]; omega

theorem blk1_b (c : Dev nD) (t : Fin cfg1.N) (j : Fin 1024) :
    (iblk1 V c 2 t : Vec Ideal S1x1024 .f32) (ix2 (0 : Fin 1) j) = (V c main_v7 : S1x1024.Idx → EReal) (ix2 (0 : Fin 1) j) := by
  obtain ⟨-, -, -, -, e0, e1, -⟩ := idx1 t
  unfold iblk1
  rw [View.read_apply]
  show V c main_v7 _ = V c main_v7 _
  congr 1
  funext a; apply Fin.ext
  match a with
  | ⟨0, _⟩ => show win1_2.index t (0 : Fin 2) * 1 + 1 * 0 = 0; rw [e0]
  | ⟨1, _⟩ => show win1_2.index t (1 : Fin 2) * 1024 + 1 * j.val = j.val; rw [e1]; omega

abbrev G1 (xr : Fin 8192 → Fin 1024 → ℝ) (wr : Fin 1024 → Fin 1024 → ℝ) (br : Fin 1024 → ℝ) : S8192x1024.Idx → EReal :=
  fun i => ((projFlat xr wr br (i 0) (i 1) : ℝ) : EReal)

theorem flushed1 (c : Dev nD) (xr : Fin 8192 → Fin 1024 → ℝ) (wr : Fin 1024 → Fin 1024 → ℝ) (br : Fin 1024 → ℝ)
    (hx : ∀ r e, V c main_v6 (ix2 r e) = ((xr r e : ℝ) : EReal)) (hw : ∀ e j, V c main_v2 (ix2 e j) = ((wr e j : ℝ) : EReal))
    (hb : ∀ j, V c main_v7 (ix2 (0 : Fin 1) j) = ((br j : ℝ) : EReal)) (t : Fin cfg1.N) :
    (dat1 (F := Ideal) V c).flushed 3 t = ((cfg1.win 3).blk t).view.read (Elt Ideal) (G1 xr wr br) := by
  show (cfg1.win 3).cut (grid1.coords t) ((dat1 V c).after 3 t) = _
  rw [after1_3]
  unfold out1_3
  rw [View.canon_unit_zero hz2]
  simp only [View.ld_unit_zero (S := S2048x1024) hz2, View.ld_unit_zero (S := S1024x1024) hz2, View.ld_unit_zero (S := S1x1024) hz2]
  have ht := lt1 t
  obtain ⟨-, -, -, -, -, -, e0, e1⟩ := idx1 t
  funext y
  obtain ⟨p, q, rfl⟩ : ∃ (p : Fin 2048) (q : Fin 1024), y = ix2 p q := ⟨y 0, y 1, eq_ix2 y⟩
  refine (lin1 _ _ _ (fun r e => xr ⟨2048 * t.val + r.val, by omega⟩ e) wr br ?_ ?_ ?_ p q).trans ?_
  · intro r e
    exact (blk1_x V c t r e ⟨2048 * t.val + r.val, by omega⟩ rfl).trans (hx _ _)
  · intro e j
    exact (blk1_w V c t e j).trans (hw _ _)
  · intro j
    exact (blk1_b V c t j).trans (hb _)
  · rw [View.read_apply]
    show _ = G1 xr wr br (((cfg1.win 3).blk t).view.emb (ix2 p q))
    have h0 : (((cfg1.win 3).blk t).view.emb (ix2 p q) : S8192x1024.Idx) = ix2 (⟨2048 * t.val + p.val, by omega⟩ : Fin 8192) q := by
      funext a; apply Fin.ext
      match a with
      | ⟨0, _⟩ => show win1_3.index t (0 : Fin 2) * 2048 + 1 * p.val = 2048 * t.val + p.val; rw [e0]; omega
      | ⟨1, _⟩ => show win1_3.index t (1 : Fin 2) * 1024 + 1 * q.val = q.val; rw [e1]; omega
    refine Eq.trans ?_ (congrArg (G1 xr wr br) h0).symm
    rfl

theorem mem_blk1 (t : Fin cfg1.N) (i : S8192x1024.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v8).slice (win1_3.rect t)).set ↔ _
  rw [View.set_slice_whole, Rect.mem_set_unit]
  exact Iff.rfl

theorem cover1 (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 4 := N_1
  obtain ⟨t, ht⟩ : ∃ t : Fin cfg1.N, t.val = (i 0).val / 2048 := ⟨⟨(i 0).val / 2048, by omega⟩, rfl⟩
  obtain ⟨-, -, -, -, -, -, e0, e1⟩ := idx1 t
  refine ⟨t, flush1_3 t, ?_⟩
  rw [mem_blk1]
  intro a
  match a with
  | ⟨0, _⟩ => show win1_3.index t (0 : Fin 2) * 2048 ≤ (i 0).val ∧ (i 0).val < win1_3.index t (0 : Fin 2) * 2048 + 2048; rw [e0, ht]; omega
  | ⟨1, _⟩ => show win1_3.index t (1 : Fin 2) * 1024 ≤ (i 1).val ∧ (i 1).val < win1_3.index t (1 : Fin 2) * 1024 + 1024; rw [e1]; omega

theorem arr1_real (c : Dev nD) (xr : Fin 8192 → Fin 1024 → ℝ) (wr : Fin 1024 → Fin 1024 → ℝ) (br : Fin 1024 → ℝ)
    (hx : ∀ r e, V c main_v6 (ix2 r e) = ((xr r e : ℝ) : EReal)) (hw : ∀ e j, V c main_v2 (ix2 e j) = ((wr e j : ℝ) : EReal))
    (hb : ∀ j, V c main_v7 (ix2 (0 : Fin 1) j) = ((br j : ℝ) : EReal)) (r : Fin 8192) (j : Fin 1024) :
    (dat1 (F := Ideal) V c).arrAt 3 cfg1.N (ix2 r j) = ((projFlat xr wr br r j : ℝ) : EReal) :=
  congrFun ((dat1 (F := Ideal) V c).arrAt_eq_of_cover 3 (G1 xr wr br)
    (fun t _ => flushed1 V c xr wr br hx hw hb t) cover1) (ix2 r j)

end Cert.KVal

end
-- ==== Proof.KI.Reg2Val.lean ====
import proofs.«401961_j51299089383807_3_alg».proof.Proof.KI.Reg2
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

-- After an even point: the scaled projected query tile, and the softmax state one step from (−∞, 0, 0).
theorem outA_eq (c : Dev nD) (i : grid2.Coords) (a : Mem2) (hc0 : cond2_0 i) (hc1 : ¬cond2_1 i) (x0 : Vec F S1x1024x1024 .f32) (x1 : Vec F S1024x1024 .bf16) (x2 : Vec F S1x1024 .f32) (x3 x4 : Vec F S1x1024x1024 .bf16) :
    outA c i a hc0 hc1 x0 x1 x2 x3 x4 =
      ( k2_pay4 x0 x1 x2,
        k2_pay2 (k2_pay10 (k2_pay4 x0 x1 x2) x3 (k2_pay5 (F := F))),
        k2_pay13 (k2_pay4 x0 x1 x2) x3 (k2_pay5 (F := F)) (k2_pay5 (F := F)) (k2_pay6 (F := F)),
        k2_pay1 (k2_pay8 x4) (k2_pay14 (k2_pay4 x0 x1 x2) x3 (k2_pay5 (F := F)) (k2_pay5 (F := F)) (k2_pay7 (F := F))) (k2_pay15 (k2_pay4 x0 x1 x2) x3 (k2_pay5 (F := F))) ) := by
  obtain ⟨arg3, harg3, arg4, harg4, arg5, harg5, arg6, harg6, arg7, harg7, arg8, harg8, arg9, harg9, arg10, harg10, arg11, harg11, arg12, harg12⟩ := a
  refine Prod.ext ?_ (Prod.ext ?_ (Prod.ext ?_ ?_)) <;> dsimp only [outA, rd]
  · refine (View.read_writes_eq_canon _ _ _ (View.cover_of_tiledL _ S1024x1024.size ?_)).trans ?_
    · sl_kernel_rfl
    unfold kernelRun2_A; dsimp only; sl_unfold_words
    rw [View.canon_unit_zero (S := S1024x1024) hz2]
    simp only [View.readAt_eq_ld, harg3.read_unread, harg4.read_unread, harg5.read_unread, View.ld_unit_zero (S := S1x1024x1024) hz3, View.ld_unit_zero (S := S1024x1024) hz2, View.ld_unit_zero (S := S1x1024) hz2, View.ld_unit_zero (S := S1024x1) hz2, View.readCov_unit_zero (S := S1024x1024) _ hz2, View.readCov_unit_zero (S := S1024x1) _ hz2]
  · refine (View.read_writes_eq_canon _ _ _ (View.cover_of_tiledL _ S1024x1.size ?_)).trans ?_
    · sl_kernel_rfl
    unfold kernelRun2_A; dsimp only; sl_unfold_words
    rw [View.canon_cons_unit_zero (S := S1024x1) hz2]
    simp only [View.readAt_eq_ld, harg3.read_unread, harg4.read_unread, harg5.read_unread, harg6.read_unread, View.ld_unit_zero (S := S1x1024x1024) hz3, View.ld_unit_zero (S := S1024x1024) hz2, View.ld_unit_zero (S := S1x1024) hz2, View.ld_unit_zero (S := S1024x1) hz2, View.readCov_unit_zero (S := S1024x1024) _ hz2, View.readCov_unit_zero (S := S1024x1) _ hz2]
  · refine (View.read_writes_eq_canon _ _ _ (View.cover_of_tiledL _ S1024x1.size ?_)).trans ?_
    · sl_kernel_rfl
    unfold kernelRun2_A; dsimp only; sl_unfold_words
    rw [View.canon_cons_unit_zero (S := S1024x1) hz2]
    simp only [View.readAt_eq_ld, harg3.read_unread, harg4.read_unread, harg5.read_unread, harg6.read_unread, View.ld_unit_zero (S := S1x1024x1024) hz3, View.ld_unit_zero (S := S1024x1024) hz2, View.ld_unit_zero (S := S1x1024) hz2, View.ld_unit_zero (S := S1024x1) hz2, View.readCov_unit_zero (S := S1024x1024) _ hz2, View.readCov_unit_zero (S := S1024x1) _ hz2]
  · refine (View.read_writes_eq_canon _ _ _ (View.cover_of_tiledL _ S1024x1024.size ?_)).trans ?_
    · sl_kernel_rfl
    unfold kernelRun2_A; dsimp only; sl_unfold_words
    rw [View.canon_cons_unit_zero (S := S1024x1024) hz2]
    simp only [View.readAt_eq_ld, harg3.read_unread, harg4.read_unread, harg5.read_unread, harg6.read_unread, harg7.read_unread, View.ld_unit_zero (S := S1x1024x1024) hz3, View.ld_unit_zero (S := S1024x1024) hz2, View.ld_unit_zero (S := S1x1024) hz2, View.ld_unit_zero (S := S1024x1) hz2, View.readCov_unit_zero (S := S1024x1024) _ hz2, View.readCov_unit_zero (S := S1024x1) _ hz2]

-- After an odd point, from `(q, m, l, acc)`: the output block `acc' / l'`, the query tile unchanged, the state one step further.
theorem outC_eq (c : Dev nD) (i : grid2.Coords) (a : Mem2) (hc0 : ¬cond2_0 i) (hc1 : cond2_1 i) (x0 : Vec F S1x1024x1024 .f32) (x1 : Vec F S1024x1024 .bf16) (x2 : Vec F S1x1024 .f32) (x3 x4 : Vec F S1x1024x1024 .bf16)
    (q : Vec F S1024x1024 .bf16) (m l : Vec F S1024x1 .f32) (acc : Vec F S1024x1024 .f32) :
    outC c i a hc0 hc1 x0 x1 x2 x3 x4 (q, m, l, acc) =
      ( k2_pay3 (k2_pay1 (k2_pay8 x4) (k2_pay14 q x3 m m acc) (k2_pay15 q x3 m)) (k2_pay13 q x3 m m l),
        q, k2_pay2 (k2_pay10 q x3 m), k2_pay13 q x3 m m l,
        k2_pay1 (k2_pay8 x4) (k2_pay14 q x3 m m acc) (k2_pay15 q x3 m) ) := by
  obtain ⟨arg3, harg3, arg4, harg4, arg5, harg5, arg6, harg6, arg7, harg7, arg8, harg8, arg9, harg9, arg10, harg10, arg11, harg11, arg12, harg12⟩ := a
  refine Prod.ext ?_ (Prod.ext rfl (Prod.ext ?_ (Prod.ext ?_ ?_))) <;> dsimp only [outC, rd]
  · refine (View.read_writes_eq_canon _ _ _ (View.cover_of_tiledL _ S1x1024x1024.size ?_)).trans ?_
    · sl_kernel_rfl
    unfold kernelRun2_C; dsimp only; sl_unfold_words
    rw [View.canon_unit_zero (S := S1x1024x1024) hz3]
    simp only [View.readAt_eq_ld, harg6.read_unread, harg7.read_unread, harg9.read_unread, harg10.read_unread, harg11.read_unread, harg12.read_unread, View.ld_unit_zero (S := S1x1024x1024) hz3, View.ld_unit_zero (S := S1024x1024) hz2, View.ld_unit_zero (S := S1x1024) hz2, View.ld_unit_zero (S := S1024x1) hz2, View.readCov_unit_zero (S := S1024x1024) _ hz2, View.readCov_unit_zero (S := S1024x1) _ hz2]
  · refine (View.read_writes_eq_canon _ _ _ (View.cover_of_tiledL _ S1024x1.size ?_)).trans ?_
    · sl_kernel_rfl
    unfold kernelRun2_C; dsimp only; sl_unfold_words
    rw [View.canon_unit_zero (S := S1024x1) hz2]
    simp only [View.readAt_eq_ld, harg6.read_unread, harg9.read_unread, harg10.read_unread, View.ld_unit_zero (S := S1x1024x1024) hz3, View.ld_unit_zero (S := S1024x1024) hz2, View.ld_unit_zero (S := S1x1024) hz2, View.ld_unit_zero (S := S1024x1) hz2, View.readCov_unit_zero (S := S1024x1024) _ hz2, View.readCov_unit_zero (S := S1024x1) _ hz2]
  · refine (View.read_writes_eq_canon _ _ _ (View.cover_of_tiledL _ S1024x1.size ?_)).trans ?_
    · sl_kernel_rfl
    unfold kernelRun2_C; dsimp only; sl_unfold_words
    rw [View.canon_unit_zero (S := S1024x1) hz2]
    simp only [View.readAt_eq_ld, harg6.read_unread, harg9.read_unread, harg10.read_unread, harg11.read_unread, View.ld_unit_zero (S := S1x1024x1024) hz3, View.ld_unit_zero (S := S1024x1024) hz2, View.ld_unit_zero (S := S1x1024) hz2, View.ld_unit_zero (S := S1024x1) hz2, View.readCov_unit_zero (S := S1024x1024) _ hz2, View.readCov_unit_zero (S := S1024x1) _ hz2]
  · refine (View.read_writes_eq_canon _ _ _ (View.cover_of_tiledL _ S1024x1024.size ?_)).trans ?_
    · sl_kernel_rfl
    unfold kernelRun2_C; dsimp only; sl_unfold_words
    rw [View.canon_unit_zero (S := S1024x1024) hz2]
    simp only [View.readAt_eq_ld, harg6.read_unread, harg7.read_unread, harg9.read_unread, harg10.read_unread, harg12.read_unread, View.ld_unit_zero (S := S1x1024x1024) hz3, View.ld_unit_zero (S := S1024x1024) hz2, View.ld_unit_zero (S := S1x1024) hz2, View.ld_unit_zero (S := S1024x1) hz2, View.readCov_unit_zero (S := S1024x1024) _ hz2, View.readCov_unit_zero (S := S1024x1) _ hz2]

abbrev xq (c : Dev nD) (t : Fin cfg2.N) : Vec F S1x1024x1024 .f32 := iblk2 V c 0 t
abbrev xw (c : Dev nD) (t : Fin cfg2.N) : Vec F S1024x1024 .bf16 := iblk2 V c 1 t
abbrev xb (c : Dev nD) (t : Fin cfg2.N) : Vec F S1x1024 .f32 := iblk2 V c 2 t
abbrev xk (c : Dev nD) (t : Fin cfg2.N) : Vec F S1x1024x1024 .bf16 := iblk2 V c 3 t
abbrev xv (c : Dev nD) (t : Fin cfg2.N) : Vec F S1x1024x1024 .bf16 := iblk2 V c 4 t

theorem outsAt2_even (c : Dev nD) (t : Fin cfg2.N) (h : t.val % 2 = 0) :
    (outsAt2 V c t.val t.isLt).2 =
      ( k2_pay4 (xq V c t) (xw V c t) (xb V c t),
        k2_pay2 (k2_pay10 (k2_pay4 (xq V c t) (xw V c t) (xb V c t)) (xk V c t) (k2_pay5 (F := F))),
        k2_pay13 (k2_pay4 (xq V c t) (xw V c t) (xb V c t)) (xk V c t) (k2_pay5 (F := F)) (k2_pay5 (F := F)) (k2_pay6 (F := F)),
        k2_pay1 (k2_pay8 (xv V c t)) (k2_pay14 (k2_pay4 (xq V c t) (xw V c t) (xb V c t)) (xk V c t) (k2_pay5 (F := F)) (k2_pay5 (F := F)) (k2_pay7 (F := F))) (k2_pay15 (k2_pay4 (xq V c t) (xw V c t) (xb V c t)) (xk V c t) (k2_pay5 (F := F))) ) := by
  rw [outsAt2_A V c t h]
  exact outA_eq _ _ _ _ _ _ _ _ _ _

theorem outsAt2_odd (c : Dev nD) (t : Fin cfg2.N) (h : t.val % 2 = 1) (q : Vec F S1024x1024 .bf16) (m l : Vec F S1024x1 .f32) (acc : Vec F S1024x1024 .f32)
    (hprev : (outsAt2 V c (t.val - 1) (Nat.lt_of_le_of_lt (Nat.sub_le _ _) t.isLt)).2 = (q, m, l, acc)) :
    outsAt2 V c t.val t.isLt =
      ( k2_pay3 (k2_pay1 (k2_pay8 (xv V c t)) (k2_pay14 q (xk V c t) m m acc) (k2_pay15 q (xk V c t) m)) (k2_pay13 q (xk V c t) m m l),
        q, k2_pay2 (k2_pay10 q (xk V c t) m), k2_pay13 q (xk V c t) m m l,
        k2_pay1 (k2_pay8 (xv V c t)) (k2_pay14 q (xk V c t) m m acc) (k2_pay15 q (xk V c t) m) ) := by
  rw [outsAt2_C V c t (by omega), hprev]
  exact outC_eq _ _ _ _ _ _ _ _ _ _ _ _ _ _

end Cert.KernelIdeal.Fr

end
-- ==== Proof.RealAlg.lean ====
import proofs.«401961_j51299089383807_3_alg».proof.Proof.Spec

noncomputable section

open scoped BigOperators

namespace Cert.Spec

theorem sum_lo_hi (f : Fin 2048 → ℝ) :
    ∑ s : Fin 2048, f s = (∑ s : Fin 1024, f (lo s)) + ∑ s : Fin 1024, f (hi s) := by
  have h := Fin.sum_univ_add (M := ℝ) (a := 1024) (b := 1024) f
  exact h

theorem rowMax_eq_max (S : Fin 2048 → ℝ) :
    rowMax S = max (tileMax fun s => S (lo s)) (tileMax fun s => S (hi s)) := by
  unfold rowMax tileMax
  apply le_antisymm
  · apply Finset.sup'_le
    intro s _
    by_cases h : s.val < 1024
    · have hs : s = lo ⟨s.val, h⟩ := Fin.ext rfl
      refine le_trans ?_ (le_max_left _ _)
      rw [hs]
      exact Finset.le_sup' (fun t : Fin 1024 => S (lo t)) (Finset.mem_univ _)
    · have h2 : s.val - 1024 < 1024 := by have := s.isLt; omega
      have hs : s = hi ⟨s.val - 1024, h2⟩ := by
        apply Fin.ext
        show s.val = 1024 + (s.val - 1024)
        omega
      refine le_trans ?_ (le_max_right _ _)
      rw [hs]
      exact Finset.le_sup' (fun t : Fin 1024 => S (hi t)) (Finset.mem_univ _)
  · apply max_le
    · apply Finset.sup'_le
      intro t _
      exact Finset.le_sup' S (Finset.mem_univ (lo t))
    · apply Finset.sup'_le
      intro t _
      exact Finset.le_sup' S (Finset.mem_univ (hi t))

theorem l1_pos (sc : Fin 1024 → ℝ) : 0 < l1 sc := by
  unfold l1
  exact Finset.sum_pos (fun _ _ => Real.exp_pos _) Finset.univ_nonempty

theorem l2_pos (m l : ℝ) (hl : 0 < l) (sc : Fin 1024 → ℝ) : 0 < l2 m l sc := by
  unfold l2
  exact add_pos (mul_pos (Real.exp_pos _) hl)
    (Finset.sum_pos (fun _ _ => Real.exp_pos _) Finset.univ_nonempty)

-- Rescaling by the moved maximum: why the carried sums are the whole row's sums shifted by the row maximum.
theorem exp_rescale (a b x : ℝ) : Real.exp (a - b) * Real.exp (x - a) = Real.exp (x - b) := by
  rw [← Real.exp_add]
  congr 1
  ring

theorem acc2_eq_sum (S : Fin 2048 → ℝ) (V : Fin 2048 → Fin 1024 → ℝ) (j : Fin 1024) :
    acc2 (m1 fun s => S (lo s)) (acc1 (fun s => S (lo s)) fun s j => V (lo s) j) (fun s => S (hi s)) (fun s j => V (hi s) j) j
      = ∑ s : Fin 2048, Real.exp (S s - rowMax S) * V s j := by
  rw [sum_lo_hi (fun s => Real.exp (S s - rowMax S) * V s j), rowMax_eq_max S]
  unfold acc2 acc1 m2 m1
  rw [Finset.mul_sum]
  congr 1
  apply Finset.sum_congr rfl
  intro s _
  rw [← mul_assoc, exp_rescale]

theorem l2_eq_sum (S : Fin 2048 → ℝ) :
    l2 (m1 fun s => S (lo s)) (l1 fun s => S (lo s)) (fun s => S (hi s))
      = ∑ s : Fin 2048, Real.exp (S s - rowMax S) := by
  rw [sum_lo_hi (fun s => Real.exp (S s - rowMax S)), rowMax_eq_max S]
  unfold l2 l1 m2 m1
  rw [Finset.mul_sum]
  congr 1
  apply Finset.sum_congr rfl
  intro s _
  rw [exp_rescale]

-- Two online steps over the key tiles give the whole-row softmax average: a quotient of sums is the sum of quotients.
theorem online_two_tiles (S : Fin 2048 → ℝ) (V : Fin 2048 → Fin 1024 → ℝ) (j : Fin 1024) :
    acc2 (m1 fun s => S (lo s)) (acc1 (fun s => S (lo s)) fun s j => V (lo s) j) (fun s => S (hi s)) (fun s j => V (hi s) j) j
      / l2 (m1 fun s => S (lo s)) (l1 fun s => S (lo s)) (fun s => S (hi s))
    = ∑ s : Fin 2048, softmax S s * V s j := by
  rw [acc2_eq_sum, l2_eq_sum, Finset.sum_div]
  apply Finset.sum_congr rfl
  intro s _
  unfold softmax
  rw [div_mul_eq_mul_div]

theorem tileScore_scaled (Q K : Fin 4 → Fin 2048 → Fin 1024 → ℝ) (b : Fin 4) (q s : Fin 2048) :
    (∑ d : Fin 1024, (Q b q d * (1 / 32)) * K b s d) = score Q K b q s := by
  unfold score
  rw [Finset.sum_div]
  apply Finset.sum_congr rfl
  intro d _
  ring

end Cert.Spec

end
-- ==== Proof.KVal2.lean ====
import proofs.«401961_j51299089383807_3_alg».proof.Proof.KI.Reg2Val
import proofs.«401961_j51299089383807_3_alg».proof.Proof.PayLin
import proofs.«401961_j51299089383807_3_alg».proof.Proof.PayAttn
import proofs.«401961_j51299089383807_3_alg».proof.Proof.RealAlg
import Idealize.ShloMosaic.Lib.Pipeline.Value
import Idealize.ShloMosaic.Lib.ValueIdx
import Idealize.ShloMosaic.Lib.ValueIdxCoords

set_option maxRecDepth 16384

noncomputable section

open scoped BigOperators

namespace Cert.KVal

open Idealize.ShloMosaic Idealize.ShloMosaic.TcCoe Idealize.ShloMosaic.ValueIdx
open Idealize.ShloMosaic.Pipeline (Dat)
open Cert.KernelIdeal Cert.KernelIdeal.Gen Cert.KernelIdeal.Fr Cert.Spec Cert.PayIdx

-- The odd point's output block from the even point's state: the two online steps, then the division.
theorem two_tiles_real
    (x0 : Vec Ideal S1x1024x1024 .f32) (x1 : Vec Ideal S1024x1024 .bf16) (x2 : Vec Ideal S1x1024 .f32)
    (k0 v0 k1 v1 : Vec Ideal S1x1024x1024 .bf16)
    (x0r : Fin 4 → Fin 2048 → Fin 1024 → ℝ) (wr : Fin 1024 → Fin 1024 → ℝ) (br : Fin 1024 → ℝ)
    (Kp Vp : Fin 4 → Fin 2048 → Fin 1024 → ℝ) (b : Fin 4) (row : Fin 1024 → Fin 2048)
    (h0 : ∀ r e, x0 (ix3 (0 : Fin 1) r e) = ((x0r b (row r) e : ℝ) : EReal))
    (hw : ∀ e d, x1 (ix2 e d) = ((wr e d : ℝ) : EReal))
    (hb : ∀ d, x2 (ix2 (0 : Fin 1) d) = ((br d : ℝ) : EReal))
    (hk0 : ∀ s d, k0 (ix3 (0 : Fin 1) s d) = ((Kp b (lo s) d : ℝ) : EReal))
    (hv0 : ∀ s j, v0 (ix3 (0 : Fin 1) s j) = ((Vp b (lo s) j : ℝ) : EReal))
    (hk1 : ∀ s d, k1 (ix3 (0 : Fin 1) s d) = ((Kp b (hi s) d : ℝ) : EReal))
    (hv1 : ∀ s j, v1 (ix3 (0 : Fin 1) s j) = ((Vp b (hi s) j : ℝ) : EReal))
    (q : Vec Ideal S1024x1024 .bf16) (m l : Vec Ideal S1024x1 .f32) (acc : Vec Ideal S1024x1024 .f32)
    (eq : q = k2_pay4 (F := Ideal) x0 x1 x2)
    (em : m = k2_pay2 (F := Ideal) (k2_pay10 q k0 (k2_pay5 (F := Ideal))))
    (el : l = k2_pay13 (F := Ideal) q k0 (k2_pay5 (F := Ideal)) (k2_pay5 (F := Ideal)) (k2_pay6 (F := Ideal)))
    (eacc : acc = k2_pay1 (F := Ideal) (k2_pay8 v0) (k2_pay14 q k0 (k2_pay5 (F := Ideal)) (k2_pay5 (F := Ideal)) (k2_pay7 (F := Ideal))) (k2_pay15 q k0 (k2_pay5 (F := Ideal))))
    (r j : Fin 1024) :
    k2_pay3 (F := Ideal) (k2_pay1 (k2_pay8 v1) (k2_pay14 q k1 m m acc) (k2_pay15 q k1 m)) (k2_pay13 q k1 m m l) (ix3 (0 : Fin 1) r j)
      = ((attn (proj x0r wr br) Kp Vp b (row r) j : ℝ) : EReal) := by

  let qr : Fin 1024 → Fin 1024 → ℝ := fun r d => proj x0r wr br b (row r) d * (1 / 32)
  let kr0 : Fin 1024 → Fin 1024 → ℝ := fun s d => Kp b (lo s) d
  let vr0 : Fin 1024 → Fin 1024 → ℝ := fun s j => Vp b (lo s) j
  let kr1 : Fin 1024 → Fin 1024 → ℝ := fun s d => Kp b (hi s) d
  let vr1 : Fin 1024 → Fin 1024 → ℝ := fun s j => Vp b (hi s) j
  let mr : Fin 1024 → ℝ := fun r => m1 (tileScore qr kr0 r)
  let lr : Fin 1024 → ℝ := fun r => l1 (tileScore qr kr0 r)
  let accr : Fin 1024 → Fin 1024 → ℝ := fun r j => acc1 (tileScore qr kr0 r) vr0 j
  have hq : ∀ r d, q (ix2 r d) = ((qr r d : ℝ) : EReal) := fun r d => by
    rw [eq]; exact q_real x0 x1 x2 (fun r e => x0r b (row r) e) wr br h0 hw hb r d
  have hm : ∀ r, m (ix2 r (0 : Fin 1)) = ((mr r : ℝ) : EReal) := fun r => by
    rw [em]; exact first_m q k0 qr kr0 hq hk0 r
  have hl : ∀ r, l (ix2 r (0 : Fin 1)) = ((lr r : ℝ) : EReal) := fun r => by
    rw [el]; exact first_l q k0 qr kr0 hq hk0 r
  have hacc : ∀ r j, acc (ix2 r j) = ((accr r j : ℝ) : EReal) := fun r j => by
    rw [eacc]; exact first_acc q k0 v0 qr kr0 vr0 hq hk0 hv0 r j
  refine (out_real _ _ (fun r => l2 (mr r) (lr r) (tileScore qr kr1 r)) (fun r j => acc2 (mr r) (accr r) (tileScore qr kr1 r) vr1 j)
    (fun r => next_l q k1 qr kr1 hq hk1 m l mr lr hm hl r)
    (fun r j => next_acc q k1 v1 qr kr1 vr1 hq hk1 hv1 m acc mr accr hm hacc r j)
    (fun r => (l2_pos _ _ (l1_pos _) _).ne') r j).trans ?_
  refine congrArg (fun x : ℝ => (x : EReal)) ?_
  have e0 : tileScore qr kr0 r = fun s => score (proj x0r wr br) Kp b (row r) (lo s) :=
    funext fun s => tileScore_scaled (proj x0r wr br) Kp b (row r) (lo s)
  have e1 : tileScore qr kr1 r = fun s => score (proj x0r wr br) Kp b (row r) (hi s) :=
    funext fun s => tileScore_scaled (proj x0r wr br) Kp b (row r) (hi s)
  show acc2 (m1 (tileScore qr kr0 r)) (acc1 (tileScore qr kr0 r) vr0) (tileScore qr kr1 r) vr1 j
      / l2 (m1 (tileScore qr kr0 r)) (l1 (tileScore qr kr0 r)) (tileScore qr kr1 r) = _
  rw [e0, e1]
  exact online_two_tiles (score (proj x0r wr br) Kp b (row r)) (Vp b) j

variable (V : (c : Dev nD) → (b : Ref sig .tc) → Buf (Elt Ideal) ((c : Thread nD τ).loc b))

theorem idx2 : ∀ t : Fin cfg2.N,
    win2_0.index t (0 : Fin 3) = t.val / 4 ∧ win2_0.index t (1 : Fin 3) = t.val / 2 % 2 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = t.val / 4 ∧ win2_3.index t (1 : Fin 3) = t.val % 2 ∧ win2_3.index t (2 : Fin 3) = 0
    ∧ win2_4.index t (0 : Fin 3) = t.val / 4 ∧ win2_4.index t (1 : Fin 3) = t.val % 2 ∧ win2_4.index t (2 : Fin 3) = 0
    ∧ win2_5.index t (0 : Fin 3) = t.val / 4 ∧ win2_5.index t (1 : Fin 3) = t.val / 2 % 2 ∧ win2_5.index t (2 : Fin 3) = 0 :=
  (by decide +kernel : ∀ t : Fin grid2.N, _)

theorem lt2 (t : Fin cfg2.N) : t.val < 16 := by have h := t.isLt; have hN : cfg2.N = 16 := N_2; omega

theorem blk2_x (c : Dev nD) (t : Fin cfg2.N) (r e : Fin 1024) (b : Fin 4) (k : Fin 2048)
    (hb : b.val = t.val / 4) (hk : k.val = 1024 * (t.val / 2 % 2) + r.val) :
    (iblk2 V c 0 t : Vec Ideal S1x1024x1024 .f32) (ix3 (0 : Fin 1) r e) = (V c main_arg0 : S4x2048x1024.Idx → EReal) (ix3 b k e) := by
  obtain ⟨e0, e1, e2, -⟩ := idx2 t
  unfold iblk2
  rw [View.read_apply]
  show V c main_arg0 _ = V c main_arg0 _
  congr 1
  funext a; apply Fin.ext
  match a with
  | ⟨0, _⟩ => show win2_0.index t (0 : Fin 3) * 1 + 1 * 0 = b.val; rw [e0, hb]; omega
  | ⟨1, _⟩ => show win2_0.index t (1 : Fin 3) * 1024 + 1 * r.val = k.val; rw [e1, hk]; omega
  | ⟨2, _⟩ => show win2_0.index t (2 : Fin 3) * 1024 + 1 * e.val = e.val; rw [e2]; omega

theorem blk2_w (c : Dev nD) (t : Fin cfg2.N) (e d : Fin 1024) :
    (iblk2 V c 1 t : Vec Ideal S1024x1024 .bf16) (ix2 e d) = (V c main_v0 : S1024x1024.Idx → EReal) (ix2 e d) := by
  obtain ⟨-, -, -, e0, e1, -⟩ := idx2 t
  unfold iblk2
  rw [View.read_apply]
  show V c main_v0 _ = V c main_v0 _
  congr 1
  funext a; apply Fin.ext
  match a with
  | ⟨0, _⟩ => show win2_1.index t (0 : Fin 2) * 1024 + 1 * e.val = e.val; rw [e0]; omega
  | ⟨1, _⟩ => show win2_1.index t (1 : Fin 2) * 1024 + 1 * d.val = d.val; rw [e1]; omega

theorem blk2_b (c : Dev nD) (t : Fin cfg2.N) (d : Fin 1024) :
    (iblk2 V c 2 t : Vec Ideal S1x1024 .f32) (ix2 (0 : Fin 1) d) = (V c main_v11 : S1x1024.Idx → EReal) (ix2 (0 : Fin 1) d) := by
  obtain ⟨-, -, -, -, -, e0, e1, -⟩ := idx2 t
  unfold iblk2
  rw [View.read_apply]
  show V c main_v11 _ = V c main_v11 _
  congr 1
  funext a; apply Fin.ext
  match a with
  | ⟨0, _⟩ => show win2_2.index t (0 : Fin 2) * 1 + 1 * 0 = 0; rw [e0]
  | ⟨1, _⟩ => show win2_2.index t (1 : Fin 2) * 1024 + 1 * d.val = d.val; rw [e1]; omega

theorem blk2_k (c : Dev nD) (t : Fin cfg2.N) (s d : Fin 1024) (b : Fin 4) (k : Fin 2048)
    (hb : b.val = t.val / 4) (hk : k.val = 1024 * (t.val % 2) + s.val) :
    (iblk2 V c 3 t : Vec Ideal S1x1024x1024 .bf16) (ix3 (0 : Fin 1) s d) = (V c main_v9 : S4x2048x1024.Idx → EReal) (ix3 b k d) := by
  obtain ⟨-, -, -, -, -, -, -, e0, e1, e2, -⟩ := idx2 t
  unfold iblk2
  rw [View.read_apply]
  show V c main_v9 _ = V c main_v9 _
  congr 1
  funext a; apply Fin.ext
  match a with
  | ⟨0, _⟩ => show win2_3.index t (0 : Fin 3) * 1 + 1 * 0 = b.val; rw [e0, hb]; omega
  | ⟨1, _⟩ => show win2_3.index t (1 : Fin 3) * 1024 + 1 * s.val = k.val; rw [e1, hk]; omega
  | ⟨2, _⟩ => show win2_3.index t (2 : Fin 3) * 1024 + 1 * d.val = d.val; rw [e2]; omega

theorem blk2_v (c : Dev nD) (t : Fin cfg2.N) (s j : Fin 1024) (b : Fin 4) (k : Fin 2048)
    (hb : b.val = t.val / 4) (hk : k.val = 1024 * (t.val % 2) + s.val) :
    (iblk2 V c 4 t : Vec Ideal S1x1024x1024 .bf16) (ix3 (0 : Fin 1) s j) = (V c main_v10 : S4x2048x1024.Idx → EReal) (ix3 b k j) := by
  obtain ⟨-, -, -, -, -, -, -, -, -, -, e0, e1, e2, -⟩ := idx2 t
  unfold iblk2
  rw [View.read_apply]
  show V c main_v10 _ = V c main_v10 _
  congr 1
  funext a; apply Fin.ext
  match a with
  | ⟨0, _⟩ => show win2_4.index t (0 : Fin 3) * 1 + 1 * 0 = b.val; rw [e0, hb]; omega
  | ⟨1, _⟩ => show win2_4.index t (1 : Fin 3) * 1024 + 1 * s.val = k.val; rw [e1, hk]; omega
  | ⟨2, _⟩ => show win2_4.index t (2 : Fin 3) * 1024 + 1 * j.val = j.val; rw [e2]; omega

theorem mem_blk2 (t : Fin cfg2.N) (i : S4x2048x1024.Idx) :
    i ∈ ((cfg2.win 5).blk t).view.set ↔ ∀ a : Fin 3, win2_5.index t a * S1x1024x1024.size a ≤ (i a).val ∧ (i a).val < win2_5.index t a * S1x1024x1024.size a + S1x1024x1024.size a := by
  show i ∈ ((View.whole main_v12).slice (win2_5.rect t)).set ↔ _
  rw [View.set_slice_whole, Rect.mem_set_unit]
  exact Iff.rfl

theorem cover2 (i : S4x2048x1024.Idx) :
    ∃ t : Fin cfg2.N, (cfg2.win 5).flush t = true ∧ i ∈ ((cfg2.win 5).blk t).view.set := by
  have hi0 : (i 0).val < 4 := (i 0).isLt
  have hi1 : (i 1).val < 2048 := (i 1).isLt
  have hi2 : (i 2).val < 1024 := (i 2).isLt
  have hN : cfg2.N = 16 := N_2
  obtain ⟨t, ht⟩ : ∃ t : Fin cfg2.N, t.val = 4 * (i 0).val + 2 * ((i 1).val / 1024) + 1 :=
    ⟨⟨4 * (i 0).val + 2 * ((i 1).val / 1024) + 1, by omega⟩, rfl⟩
  obtain ⟨-, -, -, -, -, -, -, -, -, -, -, -, -, e0, e1, e2⟩ := idx2 t
  refine ⟨t, (flush2_5 t).mpr (by omega), ?_⟩
  rw [mem_blk2]
  intro a
  match a with
  | ⟨0, _⟩ => show win2_5.index t (0 : Fin 3) * 1 ≤ (i 0).val ∧ (i 0).val < win2_5.index t (0 : Fin 3) * 1 + 1; rw [e0, ht]; omega
  | ⟨1, _⟩ => show win2_5.index t (1 : Fin 3) * 1024 ≤ (i 1).val ∧ (i 1).val < win2_5.index t (1 : Fin 3) * 1024 + 1024; rw [e1, ht]; omega
  | ⟨2, _⟩ => show win2_5.index t (2 : Fin 3) * 1024 ≤ (i 2).val ∧ (i 2).val < win2_5.index t (2 : Fin 3) * 1024 + 1024; rw [e2]; omega

abbrev G2 (x0r : Fin 4 → Fin 2048 → Fin 1024 → ℝ) (wr : Fin 1024 → Fin 1024 → ℝ) (br : Fin 1024 → ℝ)
    (Kp Vp : Fin 4 → Fin 2048 → Fin 1024 → ℝ) : S4x2048x1024.Idx → EReal :=
  fun i => ((attn (proj x0r wr br) Kp Vp (i 0) (i 1) (i 2) : ℝ) : EReal)

def prev (t : Fin cfg2.N) : Fin cfg2.N := ⟨t.val - 1, Nat.lt_of_le_of_lt (Nat.sub_le _ _) t.isLt⟩

theorem flushed2 (c : Dev nD) (x0r : Fin 4 → Fin 2048 → Fin 1024 → ℝ) (wr : Fin 1024 → Fin 1024 → ℝ) (br : Fin 1024 → ℝ)
    (Kp Vp : Fin 4 → Fin 2048 → Fin 1024 → ℝ)
    (h0 : ∀ b s e, V c main_arg0 (ix3 b s e) = ((x0r b s e : ℝ) : EReal)) (hw : ∀ e d, V c main_v0 (ix2 e d) = ((wr e d : ℝ) : EReal))
    (hb : ∀ d, V c main_v11 (ix2 (0 : Fin 1) d) = ((br d : ℝ) : EReal))
    (hk : ∀ b s d, V c main_v9 (ix3 b s d) = ((Kp b s d : ℝ) : EReal)) (hv : ∀ b s j, V c main_v10 (ix3 b s j) = ((Vp b s j : ℝ) : EReal))
    (t : Fin cfg2.N) (hf : (cfg2.win 5).flush t = true) :
    (dat2 (F := Ideal) V c).flushed 5 t = ((cfg2.win 5).blk t).view.read (Elt Ideal) (G2 x0r wr br Kp Vp) := by
  have hodd : t.val % 2 = 1 := (flush2_5 t).mp hf
  have ht := lt2 t
  have hpv : (prev t).val = t.val - 1 := rfl
  have hev : (prev t).val % 2 = 0 := by rw [hpv]; omega
  obtain ⟨-, -, -, -, -, -, -, -, -, -, -, -, -, e0, e1, e2⟩ := idx2 t
  show (cfg2.win 5).cut (grid2.coords t) ((dat2 V c).after 5 t) = _
  rw [after2_5, outsAt2_odd V c t hodd _ _ _ _ (outsAt2_even V c (prev t) hev)]
  funext y
  obtain ⟨u, r, j, rfl⟩ : ∃ (u : Fin 1) (r j : Fin 1024), y = ix3 u r j := ⟨y 0, y 1, y 2, eq_ix3 y⟩
  obtain rfl : u = 0 := Subsingleton.elim _ _
  have hb4 : t.val / 4 < 4 := by omega
  refine (two_tiles_real (xq V c (prev t)) (xw V c (prev t)) (xb V c (prev t)) (xk V c (prev t)) (xv V c (prev t)) (xk V c t) (xv V c t)
    x0r wr br Kp Vp ⟨t.val / 4, hb4⟩ (fun r => ⟨1024 * (t.val / 2 % 2) + r.val, by omega⟩)
    ?_ ?_ ?_ ?_ ?_ ?_ ?_ _ _ _ _ rfl rfl rfl rfl r j).trans ?_
  · intro r e
    exact (blk2_x V c (prev t) r e ⟨t.val / 4, hb4⟩ ⟨1024 * (t.val / 2 % 2) + r.val, by omega⟩
      (by show t.val / 4 = (t.val - 1) / 4; omega) (by show 1024 * (t.val / 2 % 2) + r.val = 1024 * ((t.val - 1) / 2 % 2) + r.val; omega)).trans (h0 _ _ _)
  · intro e d
    exact (blk2_w V c (prev t) e d).trans (hw _ _)
  · intro d
    exact (blk2_b V c (prev t) d).trans (hb _)
  · intro s d
    exact (blk2_k V c (prev t) s d ⟨t.val / 4, hb4⟩ (lo s)
      (by show t.val / 4 = (t.val - 1) / 4; omega) (by show s.val = 1024 * ((t.val - 1) % 2) + s.val; omega)).trans (hk _ _ _)
  · intro s j
    exact (blk2_v V c (prev t) s j ⟨t.val / 4, hb4⟩ (lo s)
      (by show t.val / 4 = (t.val - 1) / 4; omega) (by show s.val = 1024 * ((t.val - 1) % 2) + s.val; omega)).trans (hv _ _ _)
  · intro s d
    exact (blk2_k V c t s d ⟨t.val / 4, hb4⟩ (hi s) rfl (by show 1024 + s.val = 1024 * (t.val % 2) + s.val; omega)).trans (hk _ _ _)
  · intro s j
    exact (blk2_v V c t s j ⟨t.val / 4, hb4⟩ (hi s) rfl (by show 1024 + s.val = 1024 * (t.val % 2) + s.val; omega)).trans (hv _ _ _)
  · rw [View.read_apply]
    show _ = G2 x0r wr br Kp Vp (((cfg2.win 5).blk t).view.emb (ix3 (0 : Fin 1) r j))
    have hemb : (((cfg2.win 5).blk t).view.emb (ix3 (0 : Fin 1) r j) : S4x2048x1024.Idx)
        = ix3 (⟨t.val / 4, hb4⟩ : Fin 4) (⟨1024 * (t.val / 2 % 2) + r.val, by omega⟩ : Fin 2048) j := by
      funext a; apply Fin.ext
      match a with
      | ⟨0, _⟩ => show win2_5.index t (0 : Fin 3) * 1 + 1 * 0 = t.val / 4; rw [e0]; omega
      | ⟨1, _⟩ => show win2_5.index t (1 : Fin 3) * 1024 + 1 * r.val = 1024 * (t.val / 2 % 2) + r.val; rw [e1]; omega
      | ⟨2, _⟩ => show win2_5.index t (2 : Fin 3) * 1024 + 1 * j.val = j.val; rw [e2]; omega
    refine Eq.trans ?_ (congrArg (G2 x0r wr br Kp Vp) hemb).symm
    rfl

-- The output blocks written at the odd points tile the result array.
theorem arr2_real (c : Dev nD) (x0r : Fin 4 → Fin 2048 → Fin 1024 → ℝ) (wr : Fin 1024 → Fin 1024 → ℝ) (br : Fin 1024 → ℝ)
    (Kp Vp : Fin 4 → Fin 2048 → Fin 1024 → ℝ)
    (h0 : ∀ b s e, V c main_arg0 (ix3 b s e) = ((x0r b s e : ℝ) : EReal)) (hw : ∀ e d, V c main_v0 (ix2 e d) = ((wr e d : ℝ) : EReal))
    (hb : ∀ d, V c main_v11 (ix2 (0 : Fin 1) d) = ((br d : ℝ) : EReal))
    (hk : ∀ b s d, V c main_v9 (ix3 b s d) = ((Kp b s d : ℝ) : EReal)) (hv : ∀ b s j, V c main_v10 (ix3 b s j) = ((Vp b s j : ℝ) : EReal))
    (b : Fin 4) (q : Fin 2048) (j : Fin 1024) :
    (dat2 (F := Ideal) V c).arrAt 5 cfg2.N (ix3 b q j) = ((attn (proj x0r wr br) Kp Vp b q j : ℝ) : EReal) :=
  congrFun ((dat2 (F := Ideal) V c).arrAt_eq_of_cover 5 (G2 x0r wr br Kp Vp)
    (fun t hf => flushed2 V c x0r wr br Kp Vp h0 hw hb hk hv t hf) cover2) (ix3 b q j)

end Cert.KVal

end
-- ==== Proof.KVal.lean ====
import proofs.«401961_j51299089383807_3_alg».proof.Proof.HostVals
import proofs.«401961_j51299089383807_3_alg».proof.Proof.KVal01
import proofs.«401961_j51299089383807_3_alg».proof.Proof.KVal2

set_option maxRecDepth 16384

noncomputable section

open scoped BigOperators

namespace Cert.KVal

open Idealize.ShloMosaic Idealize.ShloMosaic.TcCoe Idealize.ShloMosaic.ValueIdx
open Idealize.ShloMosaic.Pipeline (Dat Cfg Window)
open Cert.KernelIdeal Cert.KernelIdeal.Gen Cert.KernelIdeal.Fr
open Cert.Spec

variable (m : (ℓ : Loc nD τ sig) → Buf (Elt Ideal) ℓ) (ρ : Dev nD → PrngReg)

theorem projFlat_flat (x : Fin 4 → Fin 2048 → Fin 1024 → ℝ) (W : Fin 1024 → Fin 1024 → ℝ) (bias : Fin 1024 → ℝ)
    (b : Fin 4) (s : Fin 2048) (d : Fin 1024) :
    projFlat (fun r e => x ⟨r.val / 2048, by omega⟩ ⟨r.val % 2048, by omega⟩ e) W bias ⟨2048 * b.val + s.val, by omega⟩ d
      = proj x W bias b s d := by
  have hb : (2048 * b.val + s.val) / 2048 = b.val := by omega
  have hs : (2048 * b.val + s.val) % 2048 = s.val := by omega
  have e1 : (⟨(2048 * b.val + s.val) / 2048, by omega⟩ : Fin 4) = b := Fin.ext hb
  have e2 : (⟨(2048 * b.val + s.val) % 2048, by omega⟩ : Fin 2048) = s := Fin.ext hs
  unfold projFlat proj
  show (∑ e : Fin 1024, x ⟨(2048 * b.val + s.val) / 2048, _⟩ ⟨(2048 * b.val + s.val) % 2048, _⟩ e * W e d) + bias d = _
  rw [e1, e2]

theorem keys_real (c : Dev nD) (x1 : Fin 4 → Fin 2048 → Fin 1024 → ℝ) (W5 : Fin 1024 → Fin 1024 → ℝ) (b6 : Fin 1024 → ℝ)
    (h1 : ∀ b s e, m ((c.tc : Thread nD τ).loc main_arg1) (ix3 b s e) = ((x1 b s e : ℝ) : EReal))
    (h5 : ∀ e j, m ((c.tc : Thread nD τ).loc main_arg5) (ix2 e j) = ((W5 e j : ℝ) : EReal))
    (h6 : ∀ j, m ((c.tc : Thread nD τ).loc main_arg6) (ix1 j) = ((b6 j : ℝ) : EReal))
    (b : Fin 4) (s : Fin 2048) (d : Fin 1024) :
    V5 (F := Ideal) m ρ c main_v9 (ix3 b s d) = ((proj x1 W5 b6 b s d : ℝ) : EReal) := by
  rw [V5_v9]
  refine (arr0_real (V1 m ρ) c (fun r e => x1 ⟨r.val / 2048, by omega⟩ ⟨r.val % 2048, by omega⟩ e) W5 b6
    (fun r e => (V1_v3 m ρ c r e).trans (h1 _ _ e)) (fun e j => (V1_v1 m ρ c e j).trans (h5 e j))
    (fun j => (V1_v4 m ρ c j).trans (h6 j)) _ d).trans ?_
  rw [projFlat_flat]

theorem values_real (c : Dev nD) (x2 : Fin 4 → Fin 2048 → Fin 1024 → ℝ) (W7 : Fin 1024 → Fin 1024 → ℝ) (b8 : Fin 1024 → ℝ)
    (h2 : ∀ b s e, m ((c.tc : Thread nD τ).loc main_arg2) (ix3 b s e) = ((x2 b s e : ℝ) : EReal))
    (h7 : ∀ e j, m ((c.tc : Thread nD τ).loc main_arg7) (ix2 e j) = ((W7 e j : ℝ) : EReal))
    (h8 : ∀ j, m ((c.tc : Thread nD τ).loc main_arg8) (ix1 j) = ((b8 j : ℝ) : EReal))
    (b : Fin 4) (s : Fin 2048) (j : Fin 1024) :
    V5 (F := Ideal) m ρ c main_v10 (ix3 b s j) = ((proj x2 W7 b8 b s j : ℝ) : EReal) := by
  rw [V5_v10]
  refine (arr1_real (V3 m ρ) c (fun r e => x2 ⟨r.val / 2048, by omega⟩ ⟨r.val % 2048, by omega⟩ e) W7 b8
    (fun r e => (V3_v6 m ρ c r e).trans (h2 _ _ e)) (fun e j => (V3_v2 m ρ c e j).trans (h7 e j))
    (fun j => (V3_v7 m ρ c j).trans (h8 j)) _ j).trans ?_
  rw [projFlat_flat]

-- The kernel's result entry is the specification's: keys and values from the two projection launches, attention from the third.
theorem kernel_value
    (c : Dev nD)
    (x0 x1 x2 : Fin 4 → Fin 2048 → Fin 1024 → ℝ) (W3 : Fin 1024 → Fin 1024 → ℝ) (b4 : Fin 1024 → ℝ)
    (W5 : Fin 1024 → Fin 1024 → ℝ) (b6 : Fin 1024 → ℝ) (W7 : Fin 1024 → Fin 1024 → ℝ) (b8 : Fin 1024 → ℝ)
    (h0 : ∀ b s e, m ((c.tc : Thread nD τ).loc main_arg0) (ix3 b s e) = ((x0 b s e : ℝ) : EReal))
    (h1 : ∀ b s e, m ((c.tc : Thread nD τ).loc main_arg1) (ix3 b s e) = ((x1 b s e : ℝ) : EReal))
    (h2 : ∀ b s e, m ((c.tc : Thread nD τ).loc main_arg2) (ix3 b s e) = ((x2 b s e : ℝ) : EReal))
    (h3 : ∀ e j, m ((c.tc : Thread nD τ).loc main_arg3) (ix2 e j) = ((W3 e j : ℝ) : EReal))
    (h4 : ∀ j, m ((c.tc : Thread nD τ).loc main_arg4) (ix1 j) = ((b4 j : ℝ) : EReal))
    (h5 : ∀ e j, m ((c.tc : Thread nD τ).loc main_arg5) (ix2 e j) = ((W5 e j : ℝ) : EReal))
    (h6 : ∀ j, m ((c.tc : Thread nD τ).loc main_arg6) (ix1 j) = ((b6 j : ℝ) : EReal))
    (h7 : ∀ e j, m ((c.tc : Thread nD τ).loc main_arg7) (ix2 e j) = ((W7 e j : ℝ) : EReal))
    (h8 : ∀ j, m ((c.tc : Thread nD τ).loc main_arg8) (ix1 j) = ((b8 j : ℝ) : EReal))
    (b : Fin 4) (q : Fin 2048) (j : Fin 1024) :
    (dat2 (F := Ideal) (V5 m ρ) c).arrAt 5 cfg2.N (ix3 b q j)
      = ((Cert.Spec.G x0 x1 x2 W3 b4 W5 b6 W7 b8 b q j : ℝ) : EReal) := by
  unfold Cert.Spec.G
  exact arr2_real (V5 m ρ) c x0 W3 b4 (proj x1 W5 b6) (proj x2 W7 b8)
    (fun b s e => (congrFun (V5_arg0 m ρ c) _).trans (h0 b s e))
    (fun e d => (V5_v0 m ρ c e d).trans (h3 e d))
    (fun d => (V5_v11 m ρ c d).trans (h4 d))
    (keys_real m ρ c x1 W5 b6 h1 h5 h6) (values_real m ρ c x2 W7 b8 h2 h7 h8) b q j

end Cert.KVal

end
-- ==== Proof.lean ====
import proofs.«401961_j51299089383807_3_alg».proof.Defs
import proofs.«401961_j51299089383807_3_alg».proof.Proof.Gen.Kernel
import proofs.«401961_j51299089383807_3_alg».proof.Proof.Gen.KernelIdeal
import proofs.«401961_j51299089383807_3_alg».proof.Proof.Gen.ReferenceIdeal
import proofs.«401961_j51299089383807_3_alg».proof.Proof.Gen.Pre_finite_inputs
import proofs.«401961_j51299089383807_3_alg».proof.Proof.Gen.ReferenceIdeal.Run
import proofs.«401961_j51299089383807_3_alg».proof.Proof.Gen.ReferenceIdeal.Read
import proofs.«401961_j51299089383807_3_alg».proof.Proof.K.Run
import proofs.«401961_j51299089383807_3_alg».proof.Proof.KI.Run
import proofs.«401961_j51299089383807_3_alg».proof.Proof.RefG
import proofs.«401961_j51299089383807_3_alg».proof.Proof.Finite
import proofs.«401961_j51299089383807_3_alg».proof.Proof.KVal
import Idealize.ShloMosaic.Lib.ValueIdx

noncomputable section

namespace Cert.Proof

open Idealize.ShloMosaic Idealize.ShloMosaic.TcCoe Idealize.SL.Sem Idealize.ShloMosaic.ValueIdx

theorem frame_kernel : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Fr.run_value (F := Bits) m ρ)

theorem frame_kernelIdeal : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Fr.run_value (F := Ideal) m ρ)

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

-- Both results are the specification at every index, the inputs being real by the precondition.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Fr.dat2 (F := Ideal) (Cert.KernelIdeal.Fr.V5 m ρ) c).arrAt 5 Cert.KernelIdeal.cfg2.N,
    Cert.KernelIdeal.Fr.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨x0, x1, x2, W3, b4, W5, b6, W7, b8, h0, h1, h2, h3, h4, h5, h6, h7, h8⟩ := Cert.Finite.reals_of_pre m hpre c
  obtain ⟨a0, a1, a2, a3, a4, a5, a6, a7, a8⟩ := hagree c
  rw [Cert.ReferenceIdeal.Read.val_main_v27_eq]
  funext i
  obtain ⟨b, q, j, rfl⟩ : ∃ b q j, i = ix3 b q j := ⟨i 0, i 1, i 2, eq_ix3 i⟩
  refine (Cert.RefG.ref_eq_G x0 x1 x2 W3 b4 W5 b6 W7 b8 _ _ _ _ _ _ _ _ _
    (fun b s e => by rw [a0]; exact h0 b s e) (fun b s e => by rw [a1]; exact h1 b s e) (fun b s e => by rw [a2]; exact h2 b s e)
    (fun e j => by rw [a3]; exact h3 e j) (fun j => by rw [a4]; exact h4 j) (fun e j => by rw [a5]; exact h5 e j)
    (fun j => by rw [a6]; exact h6 j) (fun e j => by rw [a7]; exact h7 e j) (fun j => by rw [a8]; exact h8 j) b q j).trans ?_
  exact (Cert.KVal.kernel_value m ρ c x0 x1 x2 W3 b4 W5 b6 W7 b8 h0 h1 h2 h3 h4 h5 h6 h7 h8 b q j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
